-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S8192x512 : Shape := ⟨2, ![8192, 512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S8192x64 : Shape := ⟨2, ![8192, 64]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S8192x64 : S_.BroadcastsInDim S8192x64 (![] : Fin 0 → Fin S8192x64.rank)
  reducesTo_S8192x64_S_d0_1 : S8192x64.ReducesTo [0, 1] S_

variable [Facts]

def fn_part3 {F : FTy → Type} [FloatOps F] (main_arg1 : IVec S262144 32) (main_v47 : IVec S_ 1) (main_v49 : IVec S262144 1) (main_c_19 : IVec S_ 1) : IVec S_ 1 :=
  let main_v50 : IVec S_ 1 := (fun x v => Host.reduce IntOp.andi x v reducesTo_S262144_S_d0 h_S_) main_v49 main_c_19
  let main_v51 : IVec S_ 1 := andi main_v47 main_v50
  let main_c_20 : IVec S_ 32 := constantI S_ 32 0#32
  let main_v52 : IVec S262144 32 := broadcastInDim S262144 ![] bcast_S_S262144 main_c_20
  let main_v53 : IVec S262144 1 := cmpi .sge main_arg1 main_v52
  let main_c_21 : IVec S_ 1 := constantI S_ 1 1#1
  let main_v54 : IVec S_ 1 := (fun x v => Host.reduce IntOp.andi x v reducesTo_S262144_S_d0 h_S_) main_v53 main_c_21
  let main_v55 : IVec S_ 1 := andi main_v51 main_v54
  let main_c_22 : IVec S_ 32 := constantI S_ 32 8192#32
  let main_v56 : IVec S262144 32 := broadcastInDim S262144 ![] bcast_S_S262144 main_c_22
  let main_v57 : IVec S262144 1 := cmpi .slt main_arg1 main_v56
  let main_c_23 : IVec S_ 1 := constantI S_ 1 1#1
  let main_v58 : IVec S_ 1 := (fun x v => Host.reduce IntOp.andi x v reducesTo_S262144_S_d0 h_S_) main_v57 main_c_23
  let main_v59 : IVec S_ 1 := andi main_v55 main_v58
  main_v59

def fn_part2 {F : FTy → Type} [FloatOps F] (main_arg0 : IVec S262144 32) (main_arg1 : IVec S262144 32) (main_arg9 : FVec F S64 .f32) (main_arg10 : FVec F S8192x64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S8192x64 .f32 := Host.absf main_arg10
  let main_cst_14 : FVec F S_ .f32 := constant S_ .f32 0x7F800000#32
  let main_v40 : FVec F S8192x64 .f32 := broadcastInDim S8192x64 ![] bcast_S_S8192x64 main_cst_14
  let main_v41 : IVec S8192x64 1 := cmpf .olt main_v39 main_v40
  let main_c_15 : IVec S_ 1 := constantI S_ 1 1#1
  let main_v42 : IVec S_ 1 := (fun x v => Host.reduce IntOp.andi x v reducesTo_S8192x64_S_d0_1 h_S_) main_v41 main_c_15
  let main_v43 : IVec S_ 1 := andi main_v38 main_v42
  let main_c_16 : IVec S_ 32 := constantI S_ 32 0#32
  let main_v44 : IVec S262144 32 := broadcastInDim S262144 ![] bcast_S_S262144 main_c_16
  let main_v45 : IVec S262144 1 := cmpi .sge main_arg0 main_v44
  let main_c_17 : IVec S_ 1 := constantI S_ 1 1#1
  let main_v46 : IVec S_ 1 := (fun x v => Host.reduce IntOp.andi x v reducesTo_S262144_S_d0 h_S_) main_v45 main_c_17
  let main_v47 : IVec S_ 1 := andi main_v43 main_v46
  let main_c_18 : IVec S_ 32 := constantI S_ 32 8192#32
  let main_v48 : IVec S262144 32 := broadcastInDim S262144 ![] bcast_S_S262144 main_c_18
  let main_v49 : IVec S262144 1 := cmpi .slt main_arg0 main_v48
  let main_c_19 : IVec S_ 1 := constantI S_ 1 1#1
  fn_part3 (F := F) main_arg1 main_v47 main_v49 main_c_19

def fn_part1 {F : FTy → Type} [FloatOps F] (main_arg0 : IVec S262144 32) (main_arg1 : IVec S262144 32) (main_arg6 : FVec F S256x64 .f32) (main_arg7 : FVec F S64 .f32) (main_arg8 : FVec F S256x64 .f32) (main_arg9 : FVec F S64 .f32) (main_arg10 : FVec F S8192x64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x64 .f32 := Host.absf main_arg8
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg0 main_arg1 main_arg9 main_arg10 main_v33

def fn {F : FTy → Type} [FloatOps F] (main_arg0 : IVec S262144 32) (main_arg1 : IVec S262144 32) (main_arg2 : FVec F S262144 .f32) (main_arg3 : FVec F S8192x512 .f32) (main_arg4 : FVec F S512x256 .f32) (main_arg5 : FVec F S256 .f32) (main_arg6 : FVec F S256x64 .f32) (main_arg7 : FVec F S64 .f32) (main_arg8 : FVec F S256x64 .f32) (main_arg9 : FVec F S64 .f32) (main_arg10 : FVec F S8192x64 .f32) : IVec S_ 1 :=
  let main_v0 : FVec F S262144 .f32 := Host.absf main_arg2
  let main_cst : FVec F S_ .f32 := constant S_ .f32 0x7F800000#32
  let main_v1 : FVec F S262144 .f32 := broadcastInDim S262144 ![] bcast_S_S262144 main_cst
  let main_v2 : IVec S262144 1 := cmpf .olt main_v0 main_v1
  let main_c : IVec S_ 1 := constantI S_ 1 1#1
  let main_v3 : IVec S_ 1 := (fun x v => Host.reduce IntOp.andi x v reducesTo_S262144_S_d0 h_S_) main_v2 main_c
  let main_v4 : FVec F S8192x512 .f32 := Host.absf main_arg3
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg1 main_arg6 main_arg7 main_arg8 main_arg9 main_arg10 main_v13 main_v16
-- ==== Kernel.lean ====
abbrev S262144 : Shape := ⟨1, ![262144]⟩
abbrev S8192x512 : Shape := ⟨2, ![8192, 512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S8192x64 : Shape := ⟨2, ![8192, 64]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192x256 : Shape := ⟨2, ![8192, 256]⟩
abbrev S1024x512 : Shape := ⟨2, ![1024, 512]⟩
abbrev S1024x256 : Shape := ⟨2, ![1024, 256]⟩
abbrev S1x256 : Shape := ⟨2, ![1, 256]⟩
abbrev S2048x2048 : Shape := ⟨2, ![2048, 2048]⟩
abbrev S2048x256 : Shape := ⟨2, ![2048, 256]⟩
abbrev S256x128 : Shape := ⟨2, ![256, 128]⟩
abbrev S128 : Shape := ⟨1, ![128]⟩
abbrev S8192x128 : Shape := ⟨2, ![8192, 128]⟩
abbrev S1024x128 : Shape := ⟨2, ![1024, 128]⟩
abbrev S1x128 : Shape := ⟨2, ![1, 128]⟩
abbrev S2048x128 : Shape := ⟨2, ![2048, 128]⟩
abbrev S1024x64 : Shape := ⟨2, ![1024, 64]⟩
abbrev S1024x1024 : Shape := ⟨2, ![1024, 1024]⟩

abbrev nBuf : Space → Nat
  | .hbm => 44
  | .vmem => 40
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S262144, .f32⟩
  | .hbm, ⟨3, _⟩ => ⟨S8192x512, .f32⟩
  | .hbm, ⟨4, _⟩ => ⟨S512x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S256x64, .f32⟩
  | .hbm, ⟨9, _⟩ => ⟨S64, .f32⟩
  | .hbm, ⟨10, _⟩ => ⟨S8192x64, .f32⟩
  | .hbm, ⟨11, _⟩ => ⟨S_, .f32⟩
  | .hbm, ⟨12, _⟩ => ⟨S8192x8192, .f32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S_, .i32⟩
  | .hbm, ⟨21, _⟩ => ⟨S262144, .i32⟩
  | .hbm, ⟨22, _⟩ => ⟨S262144, .i1⟩
  | .hbm, ⟨23, _⟩ => ⟨S_, .i32⟩
  | .hbm, ⟨24, _⟩ => ⟨S262144, .i32⟩
  | .hbm, ⟨25, _⟩ => ⟨S262144, .i32⟩
  | .hbm, ⟨26, _⟩ => ⟨S262144, .i32⟩
  | .hbm, ⟨27, _⟩ => ⟨S262144x1, .i32⟩
  | .hbm, ⟨28, _⟩ => ⟨S262144x1, .i32⟩
  | .hbm, ⟨29, _⟩ => ⟨S262144x2, .i32⟩
  | .hbm, ⟨30, _⟩ => ⟨S8192x8192, .f32⟩
  | .hbm, ⟨31, _⟩ => ⟨S8192x8192, .bf16⟩
  | .hbm, ⟨32, _⟩ => ⟨S8192x256, .f32⟩
  | .hbm, ⟨33, _⟩ => ⟨S1x256, .f32⟩
  | .hbm, ⟨34, _⟩ => ⟨S8192x256, .f32⟩
  | .hbm, ⟨35, _⟩ => ⟨S256x128, .f32⟩
  | .hbm, ⟨36, _⟩ => ⟨S128, .f32⟩
  | .hbm, ⟨37, _⟩ => ⟨S8192x128, .f32⟩
  | .hbm, ⟨38, _⟩ => ⟨S1x128, .f32⟩
  | .hbm, ⟨39, _⟩ => ⟨S8192x128, .f32⟩
  | .hbm, ⟨40, _⟩ => ⟨S8192x64, .f32⟩
  | .hbm, ⟨41, _⟩ => ⟨S8192x64, .f32⟩
  | .hbm, ⟨42, _⟩ => ⟨S8192x64, .f32⟩
  | .hbm, ⟨43, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1024x256, .f32⟩
  | .local _ .vmem, ⟨4, _⟩ => ⟨S1024x256, .f32⟩
  | .local _ .vmem, ⟨5, _⟩ => ⟨S2048x2048, .bf16⟩
  | .local _ .vmem, ⟨6, _⟩ => ⟨S2048x2048, .bf16⟩
  | .local _ .vmem, ⟨7, _⟩ => ⟨S2048x256, .f32⟩
  | .local _ .vmem, ⟨8, _⟩ => ⟨S2048x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S1024x256, .f32⟩
  | .local _ .vmem, ⟨14, _⟩ => ⟨S1024x256, .f32⟩
  | .local _ .vmem, ⟨15, _⟩ => ⟨S256x128, .f32⟩
  | .local _ .vmem, ⟨16, _⟩ => ⟨S1024x128, .f32⟩
  | .local _ .vmem, ⟨17, _⟩ => ⟨S1024x128, .f32⟩
  | .local _ .vmem, ⟨18, _⟩ => ⟨S2048x2048, .bf16⟩
  | .local _ .vmem, ⟨19, _⟩ => ⟨S2048x2048, .bf16⟩
  | .local _ .vmem, ⟨20, _⟩ => ⟨S2048x128, .f32⟩
  | .local _ .vmem, ⟨21, _⟩ => ⟨S2048x128, .f32⟩
  | .local _ .vmem, ⟨22, _⟩ => ⟨S1x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S1024x64, .f32⟩
  | .local _ .vmem, ⟨27, _⟩ => ⟨S1024x64, .f32⟩
  | .local _ .vmem, ⟨28, _⟩ => ⟨S1024x64, .f32⟩
  | .local _ .vmem, ⟨29, _⟩ => ⟨S1024x64, .f32⟩
  | .local _ .vmem, ⟨30, _⟩ => ⟨S1024x64, .f32⟩
  | .local _ .vmem, ⟨31, _⟩ => ⟨S1024x64, .f32⟩
  | .local _ .vmem, ⟨32, _⟩ => ⟨S1024x64, .f32⟩
  | .local _ .vmem, ⟨33, _⟩ => ⟨S1024x64, .f32⟩
  | .local _ .vmem, ⟨34, _⟩ => ⟨S1024x64, .f32⟩
  | .local _ .vmem, ⟨35, _⟩ => ⟨S1024x64, .f32⟩
  | .local _ .vmem, ⟨36, _⟩ => ⟨S1024x64, .f32⟩
  | .local _ .vmem, ⟨37, _⟩ => ⟨S1024x64, .f32⟩
  | .local _ .vmem, ⟨38, _⟩ => ⟨S1024x1024, .f32⟩
  | .local _ .vmem, ⟨39, _⟩ => ⟨S1024x1024, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![4, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1024x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![8, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1024x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

class Facts₀ : Prop where
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  concatenates_S256x64_S256x64_S256x128_d1 : Shape.Concatenates [S256x64, S256x64] S256x128 1
  concatenates_S64_S64_S128_d0 : Shape.Concatenates [S64, S64] S128 0
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1024x128_S1024x128_0_0 : ∀ a, (![0, 0] : Fin 2 → Nat) a + S1024x128.size a ≤ S1024x128.size a
  h_S1024x128 : 0 < S1024x128.numel
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S8192x128_S8192x64_0_0 : S8192x128.Slices ![0, 0] S8192x64
  slices_S8192x128_S8192x64_0_64 : S8192x128.Slices ![0, 64] S8192x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  scatter_S8192x8192_S262144x2_S262144_n_01_01_1_wf : ScatterDims.WF S8192x8192 S262144x2 S262144 [] [0, 1] [0, 1] 1
  dot_S1024x512_S512x256_S1024x256_1_0_0_1_n_n_wf : DotDims.WF S1024x512 S512x256 S1024x256 [1] [0] [0] [1] [] []
  dot_S2048x2048_S2048x256_S2048x256_1_0_0_1_n_n_wf : DotDims.WF S2048x2048 S2048x256 S2048x256 [1] [0] [0] [1] [] []
  dot_S1024x256_S256x128_S1024x128_1_0_0_1_n_n_wf : DotDims.WF S1024x256 S256x128 S1024x128 [1] [0] [0] [1] [] []
  dot_S2048x2048_S2048x128_S2048x128_1_0_0_1_n_n_wf : DotDims.WF S2048x2048 S2048x128 S2048x128 [1] [0] [0] [1] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .bf16 = 32 ∨ (Rect.block (s := S8192x8192) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x256.size a
  hwx1_3 : ∀ i : grid1.Coords, EltTy.bits .f32 = 32 ∨ (Rect.block (s := S8192x256) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S8192x8192.size a
  hwx3_0 : ∀ i : grid3.Coords, EltTy.bits .bf16 = 32 ∨ (Rect.block (s := S8192x8192) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S8192x128.size a
  hwx3_1 : ∀ i : grid3.Coords, EltTy.bits .f32 = 32 ∨ (Rect.block (s := S8192x128) S2048x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x128.size a ≤ S8192x128.size a
  hwx3_3 : ∀ i : grid3.Coords, EltTy.bits .f32 = 32 ∨ (Rect.block (s := S8192x128) S2048x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x64.size a ≤ S8192x64.size a
  hwx4_0 : ∀ i : grid4.Coords, EltTy.bits .f32 = 32 ∨ (Rect.block (s := S8192x64) S1024x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x64.size a ≤ S8192x64.size a
  hwx4_1 : ∀ i : grid4.Coords, EltTy.bits .f32 = 32 ∨ (Rect.block (s := S8192x64) S1024x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x64.size a ≤ S8192x64.size a
  hwx4_2 : ∀ i : grid4.Coords, EltTy.bits .f32 = 32 ∨ (Rect.block (s := S8192x64) S1024x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x64.size a ≤ S8192x64.size a
  hwx4_3 : ∀ i : grid4.Coords, EltTy.bits .f32 = 32 ∨ (Rect.block (s := S8192x64) S1024x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x64.size a ≤ S8192x64.size a
  hwx5_0 : ∀ i : grid5.Coords, EltTy.bits .f32 = 32 ∨ (Rect.block (s := S8192x64) S1024x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x64.size a ≤ S8192x64.size a
  hwx5_1 : ∀ i : grid5.Coords, EltTy.bits .f32 = 32 ∨ (Rect.block (s := S8192x64) S1024x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x1024.size a ≤ S8192x8192.size a
  hwx5_2 : ∀ i : grid5.Coords, EltTy.bits .f32 = 32 ∨ (Rect.block (s := S8192x8192) S1024x1024.size (cc5_transform_2 i) (hinb5_2 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg3) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v18) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v15) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v22) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v23) S2048x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v24) S1024x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S1024x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S1024x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v26) S1024x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v26) S1024x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v26) S1024x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S1024x1024.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S262144 : Shape := ⟨1, ![262144]⟩
abbrev S8192x512 : Shape := ⟨2, ![8192, 512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S8192x64 : Shape := ⟨2, ![8192, 64]⟩
abbrev S8192x256 : Shape := ⟨2, ![8192, 256]⟩
abbrev S262144x1 : Shape := ⟨2, ![262144, 1]⟩
abbrev S_ : Shape := ⟨0, ![]⟩
abbrev S262144x256 : Shape := ⟨2, ![262144, 256]⟩
abbrev S1x256 : Shape := ⟨2, ![1, 256]⟩
abbrev S262144x64 : Shape := ⟨2, ![262144, 64]⟩
abbrev S1x64 : Shape := ⟨2, ![1, 64]⟩
abbrev S64x8192 : Shape := ⟨2, ![64, 8192]⟩
abbrev S8192x8192 : Shape := ⟨2, ![8192, 8192]⟩

abbrev nBuf : Space → Nat
  | .hbm => 87
  | .vmem => 0
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S262144, .f32⟩
  | .hbm, ⟨3, _⟩ => ⟨S8192x512, .f32⟩
  | .hbm, ⟨4, _⟩ => ⟨S512x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S256x64, .f32⟩
  | .hbm, ⟨9, _⟩ => ⟨S64, .f32⟩
  | .hbm, ⟨10, _⟩ => ⟨S8192x64, .f32⟩
  | .hbm, ⟨11, _⟩ => ⟨S8192x256, .f32⟩
  | .hbm, ⟨12, _⟩ => ⟨S262144x1, .f32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S262144x1, .i32⟩
  | .hbm, ⟨21, _⟩ => ⟨S262144x256, .f32⟩
  | .hbm, ⟨22, _⟩ => ⟨S262144x256, .f32⟩
  | .hbm, ⟨23, _⟩ => ⟨S262144x256, .f32⟩
  | .hbm, ⟨24, _⟩ => ⟨S_, .f32⟩
  | .hbm, ⟨25, _⟩ => ⟨S8192x256, .f32⟩
  | .hbm, ⟨26, _⟩ => ⟨S262144x1, .i32⟩
  | .hbm, ⟨27, _⟩ => ⟨S8192x256, .f32⟩
  | .hbm, ⟨28, _⟩ => ⟨S1x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x64, .f32⟩
  | .hbm, ⟨33, _⟩ => ⟨S262144x1, .f32⟩
  | .hbm, ⟨34, _⟩ => ⟨S_, .i32⟩
  | .hbm, ⟨35, _⟩ => ⟨S262144, .i32⟩
  | .hbm, ⟨36, _⟩ => ⟨S262144, .i1⟩
  | .hbm, ⟨37, _⟩ => ⟨S_, .i32⟩
  | .hbm, ⟨38, _⟩ => ⟨S262144, .i32⟩
  | .hbm, ⟨39, _⟩ => ⟨S262144, .i32⟩
  | .hbm, ⟨40, _⟩ => ⟨S262144, .i32⟩
  | .hbm, ⟨41, _⟩ => ⟨S262144x1, .i32⟩
  | .hbm, ⟨42, _⟩ => ⟨S262144x64, .f32⟩
  | .hbm, ⟨43, _⟩ => ⟨S262144x64, .f32⟩
  | .hbm, ⟨44, _⟩ => ⟨S262144x64, .f32⟩
  | .hbm, ⟨45, _⟩ => ⟨S_, .f32⟩
  | .hbm, ⟨46, _⟩ => ⟨S8192x64, .f32⟩
  | .hbm, ⟨47, _⟩ => ⟨S262144x1, .i32⟩
  | .hbm, ⟨48, _⟩ => ⟨S8192x64, .f32⟩
  | .hbm, ⟨49, _⟩ => ⟨S1x64, .f32⟩
  | .hbm, ⟨50, _⟩ => ⟨S8192x64, .f32⟩
  | .hbm, ⟨51, _⟩ => ⟨S8192x64, .f32⟩
  | .hbm, ⟨52, _⟩ => ⟨S8192x64, .f32⟩
  | .hbm, ⟨53, _⟩ => ⟨S8192x64, .f32⟩
  | .hbm, ⟨54, _⟩ => ⟨S262144x1, .f32⟩
  | .hbm, ⟨55, _⟩ => ⟨S_, .i32⟩
  | .hbm, ⟨56, _⟩ => ⟨S262144, .i32⟩
  | .hbm, ⟨57, _⟩ => ⟨S262144, .i1⟩
  | .hbm, ⟨58, _⟩ => ⟨S_, .i32⟩
  | .hbm, ⟨59, _⟩ => ⟨S262144, .i32⟩
  | .hbm, ⟨60, _⟩ => ⟨S262144, .i32⟩
  | .hbm, ⟨61, _⟩ => ⟨S262144, .i32⟩
  | .hbm, ⟨62, _⟩ => ⟨S262144x1, .i32⟩
  | .hbm, ⟨63, _⟩ => ⟨S262144x64, .f32⟩
  | .hbm, ⟨64, _⟩ => ⟨S262144x64, .f32⟩
  | .hbm, ⟨65, _⟩ => ⟨S262144x64, .f32⟩
  | .hbm, ⟨66, _⟩ => ⟨S_, .f32⟩
  | .hbm, ⟨67, _⟩ => ⟨S8192x64, .f32⟩
  | .hbm, ⟨68, _⟩ => ⟨S262144x1, .i32⟩
  | .hbm, ⟨69, _⟩ => ⟨S8192x64, .f32⟩
  | .hbm, ⟨70, _⟩ => ⟨S1x64, .f32⟩
  | .hbm, ⟨71, _⟩ => ⟨S8192x64, .f32⟩
  | .hbm, ⟨72, _⟩ => ⟨S8192x64, .f32⟩
  | .hbm, ⟨73, _⟩ => ⟨S8192x64, .f32⟩
  | .hbm, ⟨74, _⟩ => ⟨S8192x64, .f32⟩
  | .hbm, ⟨75, _⟩ => ⟨S8192x64, .f32⟩
  | .hbm, ⟨76, _⟩ => ⟨S8192x64, .f32⟩
  | .hbm, ⟨77, _⟩ => ⟨S64x8192, .f32⟩
  | .hbm, ⟨78, _⟩ => ⟨S8192x8192, .f32⟩
  | .hbm, ⟨79, _⟩ => ⟨S8192x8192, .f32⟩
  | .hbm, ⟨80, _⟩ => ⟨S8192x8192, .f32⟩
  | .hbm, ⟨81, _⟩ => ⟨S_, .f32⟩
  | .hbm, ⟨82, _⟩ => ⟨S8192x8192, .f32⟩
  | .hbm, ⟨83, _⟩ => ⟨S8192x8192, .f32⟩
  | .hbm, ⟨84, _⟩ => ⟨S_, .f32⟩
  | .hbm, ⟨85, _⟩ => ⟨S8192x8192, .f32⟩
  | .hbm, ⟨86, _⟩ => ⟨S8192x8192, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_7 : Ref sig .tc := ⟨.hbm, 81, rfl⟩
abbrev main_v61 : Ref sig .tc := ⟨.hbm, 82, rfl⟩
abbrev main_v62 : Ref sig .tc := ⟨.hbm, 83, rfl⟩
abbrev main_cst_8 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S262144x1_S262144x64_0_1 : S262144x1.BroadcastsInDim S262144x64 (![0, 1] : Fin 2 → Fin S262144x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x64_S8192x64_1_0_0_1_n_n_wf : DotDims.WF S8192x256 S256x64 S8192x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x64_S64x8192_S8192x8192_1_0_0_1_n_n_wf : DotDims.WF S8192x64 S64x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat (n m : Nat) : Type := (⟨2, ![n, m]⟩ : Shape).Idx → EReal

abbrev Vc (n : Nat) : Type := (⟨1, ![n]⟩ : Shape).Idx → EReal

abbrev Ixs (n : Nat) : Type := (⟨1, ![n]⟩ : Shape).Idx → BitVec 32

def mm {n k p : Nat} (X : Mat n k) (W : Mat k p) : Mat n p :=
  fun i => ∑ t : Fin k, X (ix2 (i 0) t) * W (ix2 t (i 1))

def gram {n k : Nat} (Z : Mat n k) : Mat n n :=
  fun i => ∑ t : Fin k, Z (ix2 (i 0) t) * Z (ix2 (i 1) t)

def node (w : BitVec 32) : Fin 8192 := ⟨min w.toInt.toNat 8191, by omega⟩

def aggE {p : Nat} (row col : Ixs 262144) (val : Vc 262144) (S : Mat 8192 p) : Mat 8192 p :=
  fun i => ∑ e : Fin 262144,
    if (row (ix1 e)).toInt = ((i 0).val : ℤ) then val (ix1 e) * S (ix2 (node (col (ix1 e))) (i 1)) else 0

def adj (row col : Ixs 262144) (val : Vc 262144) : Mat 8192 8192 :=
  fun i => ∑ e : Fin 262144,
    if (row (ix1 e)).toInt = ((i 0).val : ℤ) ∧ (col (ix1 e)).toInt = ((i 1).val : ℤ) then val (ix1 e) else 0

def aggD {p : Nat} (row col : Ixs 262144) (val : Vc 262144) (S : Mat 8192 p) : Mat 8192 p :=
  mm (adj row col val) S

def act {n p : Nat} (T : Mat n p) (b : Vc p) : Mat n p :=
  fun i => Ideal.tanh (T i + b (ix1 (i 1)))

def hcat64 {n : Nat} (A B : Mat n 64) : Mat n 128 :=
  fun i => if h : (i 1).val < 64 then A (ix2 (i 0) ⟨(i 1).val, h⟩)
    else B (ix2 (i 0) ⟨(i 1).val - 64, by have h2 : (i 1).val < 128 := (i 1).isLt; omega⟩)

def vcat64 (a b : Vc 64) : Vc 128 :=
  fun i => if h : (i 0).val < 64 then a (ix1 ⟨(i 0).val, h⟩)
    else b (ix1 ⟨(i 0).val - 64, by have h2 : (i 0).val < 128 := (i 0).isLt; omega⟩)

def colsL64 {n : Nat} (M : Mat n 128) : Mat n 64 :=
  fun i => M (ix2 (i 0) ⟨(i 1).val, by have h2 : (i 1).val < 64 := (i 1).isLt; omega⟩)

def colsR64 {n : Nat} (M : Mat n 128) : Mat n 64 :=
  fun i => M (ix2 (i 0) ⟨64 + (i 1).val, by have h2 : (i 1).val < 64 := (i 1).isLt; omega⟩)

def latent {n p : Nat} (mean logstd noise : Mat n p) : Mat n p :=
  fun i => mean i + noise i * Ideal.exp (logstd i)

def zE (row col : Ixs 262144) (val : Vc 262144) (X : Mat 8192 512) (W1 : Mat 512 256) (b1 : Vc 256)
    (W2 : Mat 256 64) (b2 : Vc 64) (W3 : Mat 256 64) (b3 : Vc 64) (noise : Mat 8192 64) : Mat 8192 64 :=
  let h := act (aggE row col val (mm X W1)) b1
  latent (act (aggE row col val (mm h W2)) b2) (act (aggE row col val (mm h W3)) b3) noise

def zD (row col : Ixs 262144) (val : Vc 262144) (X : Mat 8192 512) (W1 : Mat 512 256) (b1 : Vc 256)
    (W2 : Mat 256 64) (b2 : Vc 64) (W3 : Mat 256 64) (b3 : Vc 64) (noise : Mat 8192 64) : Mat 8192 64 :=
  let h := act (aggD row col val (mm X W1)) b1
  let o := act (aggD row col val (mm h (hcat64 W2 W3))) (vcat64 b2 b3)
  latent (colsL64 o) (colsR64 o) noise

def IsReal {S : Shape} (x : S.Idx → EReal) : Prop := ∀ i, ∃ r : ℝ, x i = (r : EReal)

def InRange (w : Ixs 262144) : Prop := ∀ e : Fin 262144, 0 ≤ (w (ix1 e)).toInt ∧ (w (ix1 e)).toInt < 8192

def dec {n k : Nat} (Z : Mat n k) : Mat n n := fun i => Ideal.logistic (gram Z i)

end Cert.Spec

end
-- ==== Proof.SpecLaws.lean ====
import proofs.«419268_j46583215292539_1_alg».proof.Proof.Spec
import Mathlib.Data.EReal.Basic
import Mathlib.Data.EReal.Operations
import Mathlib.Algebra.BigOperators.Fin

noncomputable section

open scoped BigOperators

namespace Cert.SpecLaws

open Idealize.ShloMosaic Idealize.ShloMosaic.ValueIdx Cert.Spec

theorem mm_apply {n k p : Nat} (X : Mat n k) (W : Mat k p) (a : Fin n) (c : Fin p) :
    mm X W (ix2 a c) = ∑ t : Fin k, X (ix2 a t) * W (ix2 t c) := rfl

theorem aggE_apply {p : Nat} (row col : Ixs 262144) (val : Vc 262144) (S : Mat 8192 p) (a : Fin 8192) (c : Fin p) :
    aggE row col val S (ix2 a c) = ∑ e : Fin 262144,
      if (row (ix1 e)).toInt = (a.val : ℤ) then val (ix1 e) * S (ix2 (node (col (ix1 e))) c) else 0 := rfl

theorem act_apply {n p : Nat} (T : Mat n p) (b : Vc p) (a : Fin n) (c : Fin p) :
    act T b (ix2 a c) = Ideal.tanh (T (ix2 a c) + b (ix1 c)) := rfl

theorem hcat64_lt {n : Nat} (A B : Mat n 64) (a : Fin n) (c : Fin 128) (h : c.val < 64) :
    hcat64 A B (ix2 a c) = A (ix2 a ⟨c.val, h⟩) := dif_pos h

theorem hcat64_ge {n : Nat} (A B : Mat n 64) (a : Fin n) (c : Fin 128) (h : ¬ c.val < 64) :
    hcat64 A B (ix2 a c) = B (ix2 a ⟨c.val - 64, by have := c.isLt; omega⟩) := dif_neg h

theorem vcat64_lt (a b : Vc 64) (c : Fin 128) (h : c.val < 64) :
    vcat64 a b (ix1 c) = a (ix1 ⟨c.val, h⟩) := dif_pos h

theorem vcat64_ge (a b : Vc 64) (c : Fin 128) (h : ¬ c.val < 64) :
    vcat64 a b (ix1 c) = b (ix1 ⟨c.val - 64, by have := c.isLt; omega⟩) := dif_neg h

theorem colsL64_apply {n : Nat} (M : Mat n 128) (a : Fin n) (c : Fin 64) :
    colsL64 M (ix2 a c) = M (ix2 a ⟨c.val, by have := c.isLt; omega⟩) := rfl

theorem colsR64_apply {n : Nat} (M : Mat n 128) (a : Fin n) (c : Fin 64) :
    colsR64 M (ix2 a c) = M (ix2 a ⟨64 + c.val, by have := c.isLt; omega⟩) := rfl

theorem mm_hcat64 {n : Nat} (h : Mat n 256) (W2 W3 : Mat 256 64) :
    mm h (hcat64 W2 W3) = hcat64 (mm h W2) (mm h W3) := by
  funext i
  obtain ⟨a, c, rfl⟩ : ∃ (a : Fin n) (c : Fin 128), i = ix2 a c := ⟨i 0, i 1, eq_ix2 i⟩
  by_cases hc : c.val < 64
  · rw [hcat64_lt _ _ a c hc, mm_apply, mm_apply]
    exact Finset.sum_congr rfl (fun t _ => by rw [hcat64_lt _ _ t c hc])
  · rw [hcat64_ge _ _ a c hc, mm_apply, mm_apply]
    exact Finset.sum_congr rfl (fun t _ => by rw [hcat64_ge _ _ t c hc])

theorem aggE_hcat64 (row col : Ixs 262144) (val : Vc 262144) (A B : Mat 8192 64) :
    aggE row col val (hcat64 A B) = hcat64 (aggE row col val A) (aggE row col val B) := by
  funext i
  obtain ⟨a, c, rfl⟩ : ∃ (a : Fin 8192) (c : Fin 128), i = ix2 a c := ⟨i 0, i 1, eq_ix2 i⟩
  by_cases hc : c.val < 64
  · rw [hcat64_lt _ _ a c hc, aggE_apply, aggE_apply]
    exact Finset.sum_congr rfl (fun e _ => by rw [hcat64_lt _ _ _ c hc])
  · rw [hcat64_ge _ _ a c hc, aggE_apply, aggE_apply]
    exact Finset.sum_congr rfl (fun e _ => by rw [hcat64_ge _ _ _ c hc])

theorem act_hcat64 {n : Nat} (A B : Mat n 64) (a b : Vc 64) :
    act (hcat64 A B) (vcat64 a b) = hcat64 (act A a) (act B b) := by
  funext i
  obtain ⟨r, c, rfl⟩ : ∃ (r : Fin n) (c : Fin 128), i = ix2 r c := ⟨i 0, i 1, eq_ix2 i⟩
  by_cases hc : c.val < 64
  · rw [hcat64_lt _ _ r c hc, act_apply, act_apply, hcat64_lt _ _ r c hc, vcat64_lt _ _ c hc]
  · rw [hcat64_ge _ _ r c hc, act_apply, act_apply, hcat64_ge _ _ r c hc, vcat64_ge _ _ c hc]

theorem colsL64_hcat64 {n : Nat} (A B : Mat n 64) : colsL64 (hcat64 A B) = A := by
  funext i
  obtain ⟨r, c, rfl⟩ : ∃ (r : Fin n) (c : Fin 64), i = ix2 r c := ⟨i 0, i 1, eq_ix2 i⟩
  rw [colsL64_apply, hcat64_lt _ _ r _ c.isLt]

theorem colsR64_hcat64 {n : Nat} (A B : Mat n 64) : colsR64 (hcat64 A B) = B := by
  funext i
  obtain ⟨r, c, rfl⟩ : ∃ (r : Fin n) (c : Fin 64), i = ix2 r c := ⟨i 0, i 1, eq_ix2 i⟩
  have hc : ¬ (⟨64 + c.val, by have := c.isLt; omega⟩ : Fin 128).val < 64 := by simp
  rw [colsR64_apply, hcat64_ge _ _ r _ hc]
  congr 2
  exact Fin.ext (by simp)

def R (x : EReal) : Prop := ∃ r : ℝ, x = (r : EReal)

theorem R_zero : R 0 := ⟨0, EReal.coe_zero.symm⟩

theorem R_add {x y : EReal} (hx : R x) (hy : R y) : R (x + y) := by
  obtain ⟨a, rfl⟩ := hx
  obtain ⟨b, rfl⟩ := hy
  exact ⟨a + b, (EReal.coe_add a b).symm⟩

theorem R_mul {x y : EReal} (hx : R x) (hy : R y) : R (x * y) := by
  obtain ⟨a, rfl⟩ := hx
  obtain ⟨b, rfl⟩ := hy
  exact ⟨a * b, (EReal.coe_mul a b).symm⟩

theorem R_ite {c : Prop} [Decidable c] {x y : EReal} (hx : R x) (hy : R y) : R (if c then x else y) := by
  split_ifs <;> assumption

theorem R_sum {ι : Type} (s : Finset ι) (f : ι → EReal) (h : ∀ t ∈ s, R (f t)) : R (∑ t ∈ s, f t) :=
  Finset.sum_induction f R (fun _ _ => R_add) R_zero h

theorem R_tanh {x : EReal} (hx : R x) : R (Ideal.tanh x) := by
  obtain ⟨a, rfl⟩ := hx
  exact ⟨Real.tanh a, rfl⟩

theorem R_exp {x : EReal} (hx : R x) : R (Ideal.exp x) := by
  obtain ⟨a, rfl⟩ := hx
  exact ⟨Real.exp a, rfl⟩

theorem isReal_mm {n k p : Nat} {X : Mat n k} {W : Mat k p} (hX : IsReal X) (hW : IsReal W) : IsReal (mm X W) := by
  intro i
  show R (∑ t : Fin k, X (ix2 (i 0) t) * W (ix2 t (i 1)))
  exact R_sum _ _ (fun t _ => R_mul (hX _) (hW _))

theorem isReal_aggE {p : Nat} (row col : Ixs 262144) {val : Vc 262144} {S : Mat 8192 p}
    (hval : IsReal val) (hS : IsReal S) : IsReal (aggE row col val S) := by
  intro i
  show R (∑ e : Fin 262144,
    if (row (ix1 e)).toInt = ((i 0).val : ℤ) then val (ix1 e) * S (ix2 (node (col (ix1 e))) (i 1)) else 0)
  exact R_sum _ _ (fun e _ => R_ite (R_mul (hval _) (hS _)) R_zero)

theorem isReal_adj (row col : Ixs 262144) {val : Vc 262144} (hval : IsReal val) : IsReal (adj row col val) := by
  intro i
  show R (∑ e : Fin 262144,
    if (row (ix1 e)).toInt = ((i 0).val : ℤ) ∧ (col (ix1 e)).toInt = ((i 1).val : ℤ) then val (ix1 e) else 0)
  exact R_sum _ _ (fun e _ => R_ite (hval _) R_zero)

theorem isReal_act {n p : Nat} {T : Mat n p} {b : Vc p} (hT : IsReal T) (hb : IsReal b) : IsReal (act T b) := by
  intro i
  show R (Ideal.tanh (T i + b (ix1 (i 1))))
  exact R_tanh (R_add (hT _) (hb _))

theorem isReal_hcat64 {n : Nat} {A B : Mat n 64} (hA : IsReal A) (hB : IsReal B) : IsReal (hcat64 A B) := by
  intro i
  obtain ⟨r, c, rfl⟩ : ∃ (r : Fin n) (c : Fin 128), i = ix2 r c := ⟨i 0, i 1, eq_ix2 i⟩
  by_cases hc : c.val < 64
  · rw [hcat64_lt _ _ r c hc]; exact hA _
  · rw [hcat64_ge _ _ r c hc]; exact hB _

theorem coe_sum {ι : Type} (s : Finset ι) (g : ι → ℝ) :
    ((∑ t ∈ s, g t : ℝ) : EReal) = ∑ t ∈ s, (g t : EReal) :=
  map_sum (⟨⟨Real.toEReal, EReal.coe_zero⟩, EReal.coe_add⟩ : ℝ →+ EReal) g s

theorem coe_ite (c : Prop) [Decidable c] (a : ℝ) :
    (if c then (a : EReal) else 0) = ((if c then a else 0 : ℝ) : EReal) := by
  split_ifs
  · rfl
  · exact EReal.coe_zero.symm

theorem agg_core {E N : Nat} (P : Fin E → Prop) [DecidablePred P] (Q : Fin E → Fin N → Prop)
    [∀ e k, Decidable (Q e k)] (κ : Fin E → Fin N) (hQ : ∀ e k, Q e k ↔ k = κ e) (v : Fin E → ℝ) (s : Fin N → ℝ) :
    ∑ k : Fin N, (∑ e : Fin E, if P e ∧ Q e k then (v e : EReal) else 0) * (s k : EReal)
      = ∑ e : Fin E, if P e then (v e : EReal) * (s (κ e) : EReal) else 0 := by
  have hreal : ∑ k : Fin N, (∑ e : Fin E, if P e ∧ Q e k then v e else 0) * s k
      = ∑ e : Fin E, if P e then v e * s (κ e) else 0 := by
    simp_rw [Finset.sum_mul]
    rw [Finset.sum_comm]
    refine Finset.sum_congr rfl (fun e _ => ?_)
    by_cases hP : P e
    · simp only [hP, true_and, if_true, hQ]
      rw [Finset.sum_eq_single (κ e)]
      · rw [if_pos rfl]
      · intro k _ hk; rw [if_neg hk, zero_mul]
      · intro h; exact absurd (Finset.mem_univ _) h
    · simp only [hP, false_and, if_false, zero_mul, Finset.sum_const_zero]
  have hL : ∀ k : Fin N, (∑ e : Fin E, if P e ∧ Q e k then (v e : EReal) else 0) * (s k : EReal)
      = (((∑ e : Fin E, if P e ∧ Q e k then v e else 0) * s k : ℝ) : EReal) := by
    intro k
    rw [EReal.coe_mul, coe_sum]
    congr 1
    exact Finset.sum_congr rfl (fun e _ => coe_ite _ _)
  have hR : ∀ e : Fin E, (if P e then (v e : EReal) * (s (κ e) : EReal) else 0)
      = ((if P e then v e * s (κ e) else 0 : ℝ) : EReal) := by
    intro e
    rw [← EReal.coe_mul]
    exact coe_ite _ _
  rw [Finset.sum_congr rfl (fun k _ => hL k), Finset.sum_congr rfl (fun e _ => hR e), ← coe_sum, ← coe_sum, hreal]

theorem node_eq_iff (w : BitVec 32) (h0 : 0 ≤ w.toInt) (h1 : w.toInt < 8192) (k : Fin 8192) :
    w.toInt = (k.val : ℤ) ↔ k = node w := by
  have hk := k.isLt
  constructor
  · intro h
    apply Fin.ext
    show k.val = min w.toInt.toNat 8191
    omega
  · intro h
    have h2 : k.val = min w.toInt.toNat 8191 := congrArg Fin.val h
    omega

theorem aggD_eq_aggE {p : Nat} (row col : Ixs 262144) (val : Vc 262144) (S : Mat 8192 p)
    (hcol : InRange col) (hval : IsReal val) (hS : IsReal S) : aggD row col val S = aggE row col val S := by
  funext i
  obtain ⟨a, c, rfl⟩ : ∃ (a : Fin 8192) (c : Fin p), i = ix2 a c := ⟨i 0, i 1, eq_ix2 i⟩
  choose v hv using hval
  choose s hs using hS
  have h := agg_core (E := 262144) (N := 8192) (fun e => (row (ix1 e)).toInt = (a.val : ℤ))
    (fun e k => (col (ix1 e)).toInt = (k.val : ℤ)) (fun e => node (col (ix1 e)))
    (fun e k => node_eq_iff _ (hcol e).1 (hcol e).2 k) (fun e => v (ix1 e)) (fun k => s (ix2 k c))
  simp only [← hv, ← hs] at h
  show mm (adj row col val) S (ix2 a c) = _
  rw [mm_apply, aggE_apply]
  exact h

theorem zD_eq_zE (row col : Ixs 262144) (val : Vc 262144) (X : Mat 8192 512) (W1 : Mat 512 256) (b1 : Vc 256)
    (W2 : Mat 256 64) (b2 : Vc 64) (W3 : Mat 256 64) (b3 : Vc 64) (noise : Mat 8192 64)
    (hcol : InRange col) (hval : IsReal val) (hX : IsReal X) (hW1 : IsReal W1) (hb1 : IsReal b1)
    (hW2 : IsReal W2) (hW3 : IsReal W3) :
    zD row col val X W1 b1 W2 b2 W3 b3 noise = zE row col val X W1 b1 W2 b2 W3 b3 noise := by

  have h1 : aggD row col val (mm X W1) = aggE row col val (mm X W1) :=
    aggD_eq_aggE row col val _ hcol hval (isReal_mm hX hW1)

  have hh : IsReal (act (aggE row col val (mm X W1)) b1) :=
    isReal_act (isReal_aggE row col hval (isReal_mm hX hW1)) hb1

  have h2 : aggD row col val (mm (act (aggE row col val (mm X W1)) b1) (hcat64 W2 W3))
      = hcat64 (aggE row col val (mm (act (aggE row col val (mm X W1)) b1) W2))
          (aggE row col val (mm (act (aggE row col val (mm X W1)) b1) W3)) := by
    rw [mm_hcat64, aggD_eq_aggE row col val _ hcol hval (isReal_hcat64 (isReal_mm hh hW2) (isReal_mm hh hW3)),
      aggE_hcat64]
  show latent
      (colsL64 (act (aggD row col val (mm (act (aggD row col val (mm X W1)) b1) (hcat64 W2 W3))) (vcat64 b2 b3)))
      (colsR64 (act (aggD row col val (mm (act (aggD row col val (mm X W1)) b1) (hcat64 W2 W3))) (vcat64 b2 b3)))
      noise
    = latent (act (aggE row col val (mm (act (aggE row col val (mm X W1)) b1) W2)) b2)
      (act (aggE row col val (mm (act (aggE row col val (mm X W1)) b1) W3)) b3) noise
  rw [h1, h2, act_hcat64, colsL64_hcat64, colsR64_hcat64]

end Cert.SpecLaws

end
-- ==== Proof.PreFacts.lean ====
import proofs.«419268_j46583215292539_1_alg».proof.Pre_finite_inputs
import proofs.«419268_j46583215292539_1_alg».proof.Proof.Spec
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx Cert.Pre_finite_inputs

instance : Subsingleton S_.Idx := ⟨fun a b => funext fun d => d.elim0⟩

theorem inf_bits : Ideal.ofBits .f32 0x7F800000#32 = (⊤ : EReal) := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) :
    Cert.Spec.IsReal x := by
  intro i
  exact real_of_abs_lt_inf (x i) (Host.reduce_andi_all _ _ hr hu ix0 e i)

theorem inRange_of_all (w : IVec S262144 32)
    (hb : S_.BroadcastsInDim S262144 (![] : Fin 0 → Fin S262144.rank)) (hr : S262144.ReducesTo [0] S_)
    (hu : 0 < S_.numel)
    (e0 : Host.reduce IntOp.andi
          (cmpi .sge w (broadcastInDim S262144 ![] hb (constantI S_ 32 0#32))) (constantI S_ 1 1#1) hr hu ix0 = 1#1)
    (e1 : Host.reduce IntOp.andi
          (cmpi .slt w (broadcastInDim S262144 ![] hb (constantI S_ 32 8192#32))) (constantI S_ 1 1#1) hr hu ix0 = 1#1) :
    Cert.Spec.InRange w := by
  intro e
  have h0 := Host.reduce_andi_all _ _ hr hu ix0 e0 (ix1 e)
  have h1 := Host.reduce_andi_all _ _ hr hu ix0 e1 (ix1 e)
  have g0 : (0#32 : BitVec 32).toInt ≤ (w (ix1 e)).toInt := IntOp.cmpi_sge.1 h0
  have g1 : (w (ix1 e)).toInt < (8192#32 : BitVec 32).toInt := IntOp.cmpi_slt.1 h1
  have c0 : (0#32 : BitVec 32).toInt = 0 := by decide
  have c1 : (8192#32 : BitVec 32).toInt = 8192 := by decide
  exact ⟨c0 ▸ g0, c1 ▸ g1⟩

theorem facts [Facts] (a0 a1 : IVec S262144 32) (a2 : FVec Ideal S262144 .f32) (a3 : FVec Ideal S8192x512 .f32)
    (a4 : FVec Ideal S512x256 .f32) (a5 : FVec Ideal S256 .f32) (a6 : FVec Ideal S256x64 .f32)
    (a7 : FVec Ideal S64 .f32) (a8 : FVec Ideal S256x64 .f32) (a9 : FVec Ideal S64 .f32)
    (a10 : FVec Ideal S8192x64 .f32)
    (h : fn (F := Ideal) a0 a1 a2 a3 a4 a5 a6 a7 a8 a9 a10 = fun _ => 1#1) :
    Cert.Spec.InRange a0 ∧ Cert.Spec.InRange a1 ∧ Cert.Spec.IsReal a2 ∧ Cert.Spec.IsReal a3 ∧ Cert.Spec.IsReal a4 ∧
      Cert.Spec.IsReal a5 ∧ Cert.Spec.IsReal a6 ∧ Cert.Spec.IsReal a7 ∧ Cert.Spec.IsReal a8 ∧ Cert.Spec.IsReal a9 ∧
      Cert.Spec.IsReal a10 := by
  have h0 := congrFun h ix0
  dsimp only [fn, fn_part1, fn_part2, fn_part3, andi] at h0
  simp only [IntOp.andi_eq_one] at h0
  obtain ⟨⟨⟨⟨⟨⟨⟨⟨⟨⟨⟨⟨e2, e3⟩, e4⟩, e5⟩, e6⟩, e7⟩, e8⟩, e9⟩, e10⟩, r0⟩, r1⟩, c0⟩, c1⟩ := h0
  exact ⟨inRange_of_all a0 _ _ _ r0 r1, inRange_of_all a1 _ _ _ c0 c1, isReal_of_all a2 _ _ _ e2,
    isReal_of_all a3 _ _ _ e3, isReal_of_all a4 _ _ _ e4, isReal_of_all a5 _ _ _ e5, isReal_of_all a6 _ _ _ e6,
    isReal_of_all a7 _ _ _ e7, isReal_of_all a8 _ _ _ e8, isReal_of_all a9 _ _ _ e9, isReal_of_all a10 _ _ _ e10⟩

end Cert.PreFacts

end
-- ==== Proof.LibGatherRows.lean ====
import Idealize.ShloMosaic.Lib.ValueIdx

namespace Cert.LibGatherRows

open Idealize.ShloMosaic Idealize.ShloMosaic.ValueIdx

theorem gather_rows_apply {α : Type} {K D N w : Nat}
    (d : GatherDims ⟨2, ![K, D]⟩ ⟨2, ![N, 1]⟩ ⟨2, ![N, D]⟩)
    (hoff : d.offsetDims = [1]) (hcoll : d.collapsedSliceDims = [0]) (hob : d.operandBatchingDims = [])
    (hsim : d.startIndexMap = [0]) (hivd : d.indexVectorDim = 1) (hK : 0 < K)
    (x : (⟨2, ![K, D]⟩ : Shape).Idx → α) (idx : IVec ⟨2, ![N, 1]⟩ w) (n : Fin N) (j : Fin D) :
    Host.gather d x idx (ix2 n j)
      = x (ix2 (⟨min (idx (ix2 n (0 : Fin 1))).toInt.toNat (K - 1), by omega⟩ : Fin K) j) := by
  unfold Host.gather
  congr 1
  funext a

  have hb : ∀ c : Fin 2, c ∉ d.operandBatchingDims := fun c => by rw [hob]; exact List.not_mem_nil
  have h10 : (1 : Fin 2) ≠ 0 := by decide
  refine Fin.ext ?_
  show d.start (ix2 n j) idx a + d.batchCoord (ix2 n j) a + d.offCoord (ix2 n j) a = _
  rw [GatherDims.batchCoord_eq_zero _ _ _ (hb a), Nat.add_zero]
  match a with
  | ⟨0, _⟩ =>

    show d.start (ix2 n j) idx (0 : Fin 2) + d.offCoord (ix2 n j) (0 : Fin 2)
      = min (idx (ix2 n (0 : Fin 1))).toInt.toNat (K - 1)
    have hc : (0 : Fin 2) ∈ d.collapsedSliceDims := by rw [hcoll]; exact List.mem_singleton.mpr rfl
    have hk : (0 : Fin 2) ∉ d.sKept := fun h => ((GatherDims.mem_sKept _ _).mp h).1 hc
    have hm : (0 : Fin 2) ∈ d.startIndexMap := by rw [hsim]; exact List.mem_singleton.mpr rfl
    have hsl : d.sliceSizes 0 = 1 := d.slice_collapsed 0 hc

    have hbd : ∀ X : Fin 2, X ∈ d.batchDims → X = 0 := by
      intro X hX
      have h1 := (List.mem_filter.1 hX).2
      rw [hoff] at h1
      have h2 : X ≠ 1 := by simpa using h1
      apply Fin.ext
      have h3 : X.val ≠ 1 := fun h => h2 (Fin.ext h)
      have := X.isLt
      show X.val = 0
      omega

    have hsi : d.siIdx (ix2 n j) ⟨List.idxOf (0 : Fin 2) d.startIndexMap, List.idxOf_lt_length_iff.2 hm⟩
        = ix2 n (0 : Fin 1) := by
      funext b
      match b with
      | ⟨0, _⟩ =>
        unfold GatherDims.siIdx
        rw [dif_neg (by rw [hivd]; simp)]
        unfold GatherDims.siCoord
        apply Fin.ext
        simp only [Fin.val_cast]
        have e : ∀ X : Fin 2, X = 0 → ((ix2 n j) X).val = n.val := fun X h => by subst h; rfl
        exact e _ (hbd _ (List.getElem_mem _))
      | ⟨1, _⟩ =>
        unfold GatherDims.siIdx
        rw [dif_pos (by rw [hivd])]
        apply Fin.ext
        show List.idxOf (0 : Fin 2) d.startIndexMap = 0
        rw [hsim]; simp
    rw [GatherDims.offCoord_eq_zero _ _ _ hk, Nat.add_zero]
    unfold GatherDims.start
    rw [dif_pos hm, hsi]
    show min (idx (ix2 n (0 : Fin 1))).toInt.toNat (K - d.sliceSizes 0) = min (idx (ix2 n (0 : Fin 1))).toInt.toNat (K - 1)
    rw [hsl]
  | ⟨1, _⟩ =>

    show d.start (ix2 n j) idx (1 : Fin 2) + d.offCoord (ix2 n j) (1 : Fin 2) = j.val
    have hm : (1 : Fin 2) ∉ d.startIndexMap := by
      rw [hsim]; exact fun h => h10 (List.mem_singleton.1 h)
    have hk : (1 : Fin 2) ∈ d.sKept := by
      rw [GatherDims.mem_sKept, hcoll]
      exact ⟨fun h => h10 (List.mem_singleton.1 h), hb 1⟩
    have hod : ∀ X : Fin 2, X ∈ d.offsetDims → X = 1 := by
      intro X hX; rw [hoff] at hX; exact List.mem_singleton.1 hX
    unfold GatherDims.start
    rw [dif_neg hm, Nat.zero_add]
    unfold GatherDims.offCoord
    rw [dif_pos hk]
    have e : ∀ X : Fin 2, X = 1 → ((ix2 n j) X).val = j.val := fun X h => by subst h; rfl
    exact e _ (hod _ (List.getElem_mem _))

end Cert.LibGatherRows
-- ==== Proof.LibScatterRows.lean ====
import Idealize.ShloMosaic.PureOps.Ideal.Laws
import Idealize.ShloMosaic.Lib.ValueIdx
import Idealize.ShloMosaic.Lib.Pipeline.Value

noncomputable section

open scoped BigOperators

namespace Cert.LibScatterRows

open Idealize.ShloMosaic Idealize.ShloMosaic.ValueIdx

/-- An update lands on entry (n, k) exactly when its two target coordinates, start plus window offset, are n and k. -/
theorem resultIdx_iff {N M w : Nat} {I U : Shape} (d : ScatterDims ⟨2, ![N, M]⟩ I U) (j : U.Idx) (idx : IVec I w)
    (z0 z1 : ℤ) (e0 : d.start j idx 0 + (d.window j 0 : ℕ) = z0) (e1 : d.start j idx 1 + (d.window j 1 : ℕ) = z1)
    (n : Fin N) (k : Fin M) :
    d.resultIdx? j idx = some (ix2 n k) ↔ z0 = (n.val : ℤ) ∧ z1 = (k.val : ℤ) := by
  have hn := n.isLt
  have hk := k.isLt
  subst e0 e1
  unfold ScatterDims.resultIdx?
  split
  next h =>
    have h0 : 0 ≤ d.start j idx 0 + (d.window j 0 : ℕ) ∧ d.start j idx 0 + (d.window j 0 : ℕ) < (N : ℤ) := h 0
    have h1 : 0 ≤ d.start j idx 1 + (d.window j 1 : ℕ) ∧ d.start j idx 1 + (d.window j 1 : ℕ) < (M : ℤ) := h 1
    rw [Option.some.injEq]
    constructor
    · intro hf
      have f0 : (d.start j idx 0 + (d.window j 0 : ℕ)).toNat = n.val := congrArg Fin.val (congrFun hf 0)
      have f1 : (d.start j idx 1 + (d.window j 1 : ℕ)).toNat = k.val := congrArg Fin.val (congrFun hf 1)
      constructor <;> omega
    · rintro ⟨en, ek⟩
      funext a; apply Fin.ext
      match a with
      | ⟨0, _⟩ => show (d.start j idx 0 + (d.window j 0 : ℕ)).toNat = n.val; omega
      | ⟨1, _⟩ => show (d.start j idx 1 + (d.window j 1 : ℕ)).toNat = k.val; omega
  next h =>
    refine ⟨fun hf => absurd hf (by simp), fun ⟨en, ek⟩ => (h fun a => ?_).elim⟩
    match a with
    | ⟨0, _⟩ =>
      show 0 ≤ d.start j idx 0 + (d.window j 0 : ℕ) ∧ d.start j idx 0 + (d.window j 0 : ℕ) < (N : ℤ); omega
    | ⟨1, _⟩ =>
      show 0 ≤ d.start j idx 1 + (d.window j 1 : ℕ) ∧ d.start j idx 1 + (d.window j 1 : ℕ) < (M : ℤ); omega

section Coordinates

variable {N E C : Nat}

abbrev rowDims (hwf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := hwf }

theorem rowDims_start0 {w : Nat} (hwf) (j : (⟨2, ![E, C]⟩ : Shape).Idx) (idx : IVec ⟨2, ![E, 1]⟩ w) :
    (rowDims (N := N) hwf).start j idx 0 = (idx (ix2 (j 0) 0)).toInt :=
  congrArg (fun k => (idx k).toInt) (show (rowDims (N := N) hwf).siIdx j ⟨0, Nat.one_pos⟩ = ix2 (j 0) 0 from
    funext fun b => Fin.ext (by match b with | ⟨0, _⟩ => rfl | ⟨1, _⟩ => rfl))

end Coordinates

section RowScatter

variable {N E C : Nat}

theorem scatterAdd_rowDims_apply {w : Nat} (hwf) (x : FVec Ideal ⟨2, ![N, C]⟩ .f32) (idx : IVec ⟨2, ![E, 1]⟩ w)
    (upd : FVec Ideal ⟨2, ![E, C]⟩ .f32) (n : Fin N) (c : Fin C) :
    Host.scatterAdd (rowDims (N := N) hwf) x idx upd (ix2 n c)
      = x (ix2 n c) + ∑ e : Fin E, if (idx (ix2 e 0)).toInt = (n.val : ℤ) then upd (ix2 e c) else 0 := by
  have key : ∀ (e : Fin E) (b : Fin C), (rowDims (N := N) hwf).resultIdx? (ix2 e b) idx = some (ix2 n c) ↔
      ((idx (ix2 e 0)).toInt = (n.val : ℤ) ∧ b = c) := fun e b =>
    (resultIdx_iff (rowDims (N := N) hwf) (ix2 e b) idx _ _ ((congrArg (· + _) (rowDims_start0 hwf _ idx)).trans (add_zero _))
      (zero_add _) n c).trans (and_congr Iff.rfl (Nat.cast_inj.trans Fin.val_inj))
  show x (ix2 n c) + ∑ j ∈ Finset.univ.filter (fun j => (rowDims (N := N) hwf).resultIdx? j idx = some (ix2 n c)), upd j = _
  refine congrArg (fun t => x (ix2 n c) + t) ?_
  rw [Finset.sum_filter, sum_idx2]
  refine Finset.sum_congr rfl fun e _ => ?_
  by_cases hn : (idx (ix2 e 0)).toInt = (n.val : ℤ)
  · rw [if_pos hn]
    rw [Finset.sum_eq_single c (fun b _ hb => if_neg (fun h => hb ((key e b).1 h).2))
      (fun h => absurd (Finset.mem_univ c) h)]
    exact if_pos ((key e c).2 ⟨hn, rfl⟩)
  · rw [if_neg hn]
    exact Finset.sum_eq_zero fun b _ => if_neg (fun h => hn ((key e b).1 h).1)

theorem scatterAdd_rows_apply {N E C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e : Fin E, if (idx (ix2 e 0)).toInt = (n.val : ℤ) then upd (ix2 e c) else 0 := by
  cases d with
  | mk uw iw sd iv wf =>
    dsimp only at h1 h2 h3 h4
    subst h1 h2 h3 h4
    exact scatterAdd_rowDims_apply wf x idx upd n c

end RowScatter

end Cert.LibScatterRows

end
-- ==== Proof.RefValue.lean ====
import proofs.«419268_j46583215292539_1_alg».proof.Proof.Gen.ReferenceIdeal.Run
import proofs.«419268_j46583215292539_1_alg».proof.Proof.Gen.ReferenceIdeal.Read
import proofs.«419268_j46583215292539_1_alg».proof.Proof.Spec
import proofs.«419268_j46583215292539_1_alg».proof.Proof.LibGatherRows
import proofs.«419268_j46583215292539_1_alg».proof.Proof.LibScatterRows
import proofs.«419268_j46583215292539_1_alg».proof.Defs
import proofs.«419268_j46583215292539_1_alg».proof.Proof.Gen.Pre_finite_inputs
import Idealize.ShloMosaic.Lib.StackMember

noncomputable section

open scoped BigOperators

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

theorem idx2_ext {n0 n1 : Nat} (f g : (⟨2, ![n0, n1]⟩ : Shape).Idx) (h0 : (f 0).val = (g 0).val)
    (h1 : (f 1).val = (g 1).val) : f = g := by
  funext a
  match a with
  | ⟨0, _⟩ => exact Fin.ext h0
  | ⟨1, _⟩ => exact Fin.ext h1

theorem idx1_ext {n : Nat} (f g : (⟨1, ![n]⟩ : Shape).Idx) (h0 : (f 0).val = (g 0).val) : f = g := by
  funext a
  match a with
  | ⟨0, _⟩ => exact Fin.ext h0

theorem wrap_id (w : BitVec 32) (h : 0 ≤ w.toInt) :
    Scalar.select (IntOp.cmpi .slt w 0#32) (IntOp.addi w 8192#32) w = w := by
  have hc : IntOp.cmpi .slt w 0#32 = 0#1 := by
    have hs : w.slt 0#32 = false := by
      simp only [BitVec.slt, BitVec.toInt_zero, decide_eq_false_iff_not, not_lt]
      exact h
    simp only [IntOp.cmpi, hs]
    rfl
  rw [hc, select_zero]

theorem zero_const : FloatOps.ofBits (F := Ideal) .f32 0x00000000#32 = 0 := by
  rw [Ideal.ofBits_def, Ideal.ofBits_zero_f32]

theorem agg_apply {p : Nat}
    (dg : GatherDims ⟨2, ![8192, p]⟩ ⟨2, ![262144, 1]⟩ ⟨2, ![262144, p]⟩)
    (hoff : dg.offsetDims = [1]) (hcoll : dg.collapsedSliceDims = [0]) (hob : dg.operandBatchingDims = [])
    (hsim : dg.startIndexMap = [0]) (hivd : dg.indexVectorDim = 1)
    (ds : ScatterDims ⟨2, ![8192, p]⟩ ⟨2, ![262144, 1]⟩ ⟨2, ![262144, p]⟩)
    (h1 : ds.updateWindowDims = [1]) (h2 : ds.insertedWindowDims = [0]) (h3 : ds.scatterDimsToOperandDims = [0])
    (h4 : ds.indexVectorDim = 1)
    (row col : Spec.Ixs 262144) (val : Spec.Vc 262144) (S : FVec Ideal ⟨2, ![8192, p]⟩ .f32)
    (Z : FVec Ideal ⟨2, ![8192, p]⟩ .f32) (hZ : ∀ i, Z i = 0)
    (rowI colI : IVec ⟨2, ![262144, 1]⟩ 32)
    (hrow : ∀ e : Fin 262144, rowI (ix2 e (0 : Fin 1)) = row (ix1 e))
    (hcol : ∀ e : Fin 262144, colI (ix2 e (0 : Fin 1)) = col (ix1 e))
    (V : FVec Ideal ⟨2, ![262144, p]⟩ .f32)
    (hV : ∀ (e : Fin 262144) (c : Fin p), V (ix2 e c) = val (ix1 e)) :
    Host.scatterAdd ds Z rowI (mulf V (Host.gather dg S colI)) = Spec.aggE row col val S := by
  funext i
  obtain ⟨n, c, rfl⟩ : ∃ (n : Fin 8192) (c : Fin p), i = ix2 n c := ⟨i 0, i 1, eq_ix2 i⟩
  rw [LibScatterRows.scatterAdd_rows_apply ds h1 h2 h3 h4, hZ, zero_add]
  unfold Spec.aggE
  refine Finset.sum_congr rfl fun e _ => ?_
  rw [hrow e]
  refine if_congr Iff.rfl ?_ rfl
  rw [mulf_apply, hV, LibGatherRows.gather_rows_apply dg hoff hcoll hob hsim hivd (by norm_num)]
  refine congrArg (fun r : Fin 8192 => val (ix1 e) * S (ix2 r c)) (Fin.ext ?_)
  show min (colI (ix2 e (0 : Fin 1))).toInt.toNat (8192 - 1) = min (col (ix1 e)).toInt.toNat 8191
  rw [hcol]

/-- A rows-by-columns product with no batch axis is the matrix product, entry by entry. -/
theorem dot_eq_mm {n k p : Nat} (A : FVec Ideal ⟨2, ![n, k]⟩ .f32) (B : FVec Ideal ⟨2, ![k, p]⟩ .f32) :
    Host.dotGeneral (DotDims.plain n k p) none A B = Spec.mm A B := by
  funext i
  obtain ⟨a, b, rfl⟩ : ∃ (a : Fin n) (b : Fin p), i = ix2 a b := ⟨i 0, i 1, eq_ix2 i⟩
  exact StackMember.dotGeneral_plain_apply none A B a b

variable (x0 x1 : (⟨S262144, .i32⟩ : BufTy).Contents (Elt Ideal)) (x2 : (⟨S262144, .f32⟩ : BufTy).Contents (Elt Ideal))
  (x3 : (⟨S8192x512, .f32⟩ : BufTy).Contents (Elt Ideal)) (x4 : (⟨S512x256, .f32⟩ : BufTy).Contents (Elt Ideal))
  (x5 : (⟨S256, .f32⟩ : BufTy).Contents (Elt Ideal)) (x6 : (⟨S256x64, .f32⟩ : BufTy).Contents (Elt Ideal))
  (x7 : (⟨S64, .f32⟩ : BufTy).Contents (Elt Ideal)) (x8 : (⟨S256x64, .f32⟩ : BufTy).Contents (Elt Ideal))
  (x9 : (⟨S64, .f32⟩ : BufTy).Contents (Elt Ideal)) (x10 : (⟨S8192x64, .f32⟩ : BufTy).Contents (Elt Ideal))

theorem v0_eq : val_main_v0 (F := Ideal) x3 x4 = Spec.mm x3 x4 := dot_eq_mm x3 x4

theorem v11_zero (i : S8192x256.Idx) : val_main_v11 (F := Ideal) i = 0 := by
  rw [val_main_v11_apply, val_main_cst_apply, zero_const]

theorem v12_at (e : Fin 262144) : val_main_v12 (F := Ideal) x0 (ix2 e (0 : Fin 1)) = x0 (ix1 e) := by
  rw [val_main_v12_apply]
  exact congrArg x0 (idx1_ext _ _ rfl)

theorem v7_at (hcol : ∀ e : Fin 262144, 0 ≤ (x1 (ix1 e)).toInt) (e : Fin 262144) :
    val_main_v7 (F := Ideal) x1 (ix2 e (0 : Fin 1)) = x1 (ix1 e) := by
  have hi : idx_main_v7 (ix2 e (0 : Fin 1)) = ix1 e := idx1_ext _ _ rfl
  rw [val_main_v7_apply, hi, val_main_v6_apply, val_main_v3_apply, val_main_v5_apply, val_main_v2_apply,
    val_main_v4_apply, val_main_c_apply, val_main_c_0_apply]
  exact wrap_id _ (hcol e)

theorem v9_at (e : Fin 262144) (c : Fin 256) : val_main_v9 (F := Ideal) x2 (ix2 e c) = x2 (ix1 e) := by
  rw [val_main_v9_apply, val_main_v1_apply]
  exact congrArg x2 (idx1_ext _ _ rfl)

theorem v13_eq (hcol : ∀ e : Fin 262144, 0 ≤ (x1 (ix1 e)).toInt) :
    val_main_v13 (F := Ideal) x0 x1 x2 x3 x4 = Spec.aggE x0 x1 x2 (Spec.mm x3 x4) := by
  unfold val_main_v13 val_main_v10 val_main_v8
  rw [v0_eq]
  exact agg_apply gather_S8192x256_S262144x1_S262144x256_1_0_n_n_0_1_1256 rfl rfl rfl rfl rfl
    scatter_S8192x256_S262144x1_S262144x256_1_0_0_1 rfl rfl rfl rfl x0 x1 x2 _ _ v11_zero _ _ (v12_at x0)
    (v7_at x1 hcol) _ (v9_at x2)

theorem v17_eq (hcol : ∀ e : Fin 262144, 0 ≤ (x1 (ix1 e)).toInt) :
    val_main_v17 (F := Ideal) x0 x1 x2 x3 x4 x5 = Spec.act (Spec.aggE x0 x1 x2 (Spec.mm x3 x4)) x5 := by
  funext i
  have hi : idx_main_v14 (idx_main_v15 i) = ix1 (i 1) := idx1_ext _ _ rfl
  rw [val_main_v17_apply, val_main_v16_apply, v13_eq x0 x1 x2 x3 x4 hcol, val_main_v15_apply, val_main_v14_apply, hi,
    Ideal.hostUnary_tanh_def, Ideal.addf_def]
  rfl

theorem v18_eq : val_main_v18 (F := Ideal) x0 x1 x2 x3 x4 x5 x6
    = Spec.mm (val_main_v17 (F := Ideal) x0 x1 x2 x3 x4 x5) x6 := dot_eq_mm _ x6

theorem v29_zero (i : S8192x64.Idx) : val_main_v29 (F := Ideal) i = 0 := by
  rw [val_main_v29_apply, val_main_cst_3_apply, zero_const]

theorem v27_at (e : Fin 262144) (c : Fin 64) : val_main_v27 (F := Ideal) x2 (ix2 e c) = x2 (ix1 e) := by
  rw [val_main_v27_apply, val_main_v19_apply]
  exact congrArg x2 (idx1_ext _ _ rfl)

theorem v31_eq (hcol : ∀ e : Fin 262144, 0 ≤ (x1 (ix1 e)).toInt) :
    val_main_v31 (F := Ideal) x0 x1 x2 x3 x4 x5 x6
      = Spec.aggE x0 x1 x2 (val_main_v18 (F := Ideal) x0 x1 x2 x3 x4 x5 x6) := by
  unfold val_main_v31 val_main_v28 val_main_v26
  exact agg_apply gather_S8192x64_S262144x1_S262144x64_1_0_n_n_0_1_164 rfl rfl rfl rfl rfl
    scatter_S8192x64_S262144x1_S262144x64_1_0_0_1 rfl rfl rfl rfl x0 x1 x2 _ _ v29_zero _ _ (v12_at x0)
    (v7_at x1 hcol) _ (v27_at x2)

theorem v35_eq (hcol : ∀ e : Fin 262144, 0 ≤ (x1 (ix1 e)).toInt) :
    val_main_v35 (F := Ideal) x0 x1 x2 x3 x4 x5 x6 x7
      = Spec.act (Spec.aggE x0 x1 x2 (Spec.mm (Spec.act (Spec.aggE x0 x1 x2 (Spec.mm x3 x4)) x5) x6)) x7 := by
  funext i
  have hi : idx_main_v32 (idx_main_v33 i) = ix1 (i 1) := idx1_ext _ _ rfl
  rw [val_main_v35_apply, val_main_v34_apply, v31_eq x0 x1 x2 x3 x4 x5 x6 hcol, v18_eq,
    v17_eq x0 x1 x2 x3 x4 x5 hcol, val_main_v33_apply, val_main_v32_apply, hi, Ideal.hostUnary_tanh_def,
    Ideal.addf_def]
  rfl

theorem ref_z (hcol : ∀ e : Fin 262144, 0 ≤ (x1 (ix1 e)).toInt) :
    val_main_v56 (F := Ideal) x0 x1 x2 x3 x4 x5 x6 x7 x8 x9 x10 = Cert.Spec.zE x0 x1 x2 x3 x4 x5 x6 x7 x8 x9 x10 := by
  funext i
  rw [val_main_v56_apply, val_main_v55_apply, val_main_v54_apply, v35_eq x0 x1 x2 x3 x4 x5 x6 x7 hcol,
    show val_main_v53 (F := Ideal) x0 x1 x2 x3 x4 x5 x8 x9 = _ from v35_eq x0 x1 x2 x3 x4 x5 x8 x9 hcol, Ideal.addf_def, Ideal.mulf_def, Ideal.hostUnary_exp_def]
  rfl

theorem one_const : FloatOps.ofBits (F := Ideal) .f32 0x3F800000#32 = 1 := by
  rw [Ideal.ofBits_def]
  simp [Ideal.ofBits, Ideal.ieee, -EReal.coe_mul]
  norm_num

theorem ref_adj (hcol : ∀ e : Fin 262144, 0 ≤ (x1 (ix1 e)).toInt) :
    val_main_v64 (F := Ideal) x0 x1 x2 x3 x4 x5 x6 x7 x8 x9 x10 = Cert.Spec.dec (Cert.Spec.zE x0 x1 x2 x3 x4 x5 x6 x7 x8 x9 x10) := by
  funext i
  rw [val_main_v64_apply, val_main_v63_apply, val_main_cst_8_apply, val_main_v62_apply, val_main_v61_apply,
    val_main_cst_7_apply, val_main_v60_apply, val_main_v59_apply, val_main_v58_apply, one_const, Ideal.hostDivf_def,
    Ideal.addf_def, Ideal.hostUnary_exp_def, Ideal.hostNegf_def, Ideal.negf_def]
  unfold Spec.dec Ideal.logistic Spec.gram
  refine congrArg (fun s => Ideal.div 1 (1 + Ideal.exp (-s))) (Finset.sum_congr rfl fun k _ => ?_)
  rw [val_main_v57_apply, ref_z x0 x1 x2 x3 x4 x5 x6 x7 x8 x9 x10 hcol]
  exact congrArg₂ (· * ·) (congrArg _ (idx2_ext _ _ rfl rfl)) (congrArg _ (idx2_ext _ _ rfl rfl))

theorem ref_run (m' : (ℓ : Loc nD τ sig) → Buf (Elt Ideal) ℓ) (ρ' : Dev nD → PrngReg)
    (hcol : ∀ (c : Dev nD) (e : Fin 262144), 0 ≤ ((m' ((c.tc : Thread nD τ).loc main_arg1)) (ix1 e)).toInt) :
    θ_run (defs (F := Ideal)) (onTc (τ := τ) (main (F := Ideal))) ⟨m', fun _ => 0, ρ'⟩ (fun r => ∀ c : Dev nD,
      r.2.mem ((c.tc : Thread nD τ).loc main_v64) = Cert.Spec.dec (Cert.Spec.zE (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)))
      ∧ r.2.mem ((c.tc : Thread nD τ).loc main_v56) = Cert.Spec.zE (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)) := by
  refine (θ_run (defs (F := Ideal)) _ _).mono (fun _ h c => ⟨(h c).1.trans ?_, (h c).2.1.trans ?_, (h c).2.2⟩)
    (Cert.ReferenceIdeal.Value.run (F := Ideal) m' ρ')
  · exact (val_main_v64_eq m' c).trans (ref_adj _ _ _ _ _ _ _ _ _ _ _ (hcol c))
  · exact (val_main_v56_eq m' c).trans (ref_z _ _ _ _ _ _ _ _ _ _ _ (hcol c))

theorem ref_frame : Cert.frame_ReferenceIdeal := fun m ρ _ =>
  (θ_run (defs (F := Ideal)) _ _).mono (fun _ h c => (h c).2.2) (Cert.ReferenceIdeal.Value.run (F := Ideal) m ρ)

end Cert.RefValue

end
-- ==== Proof.KI.Hub.lean ====
import proofs.«419268_j46583215292539_1_alg».proof.Proof.Gen.KernelIdeal.Launch
import proofs.«419268_j46583215292539_1_alg».proof.Proof.Gen.KernelIdeal.Skeleton
import proofs.«419268_j46583215292539_1_alg».proof.Proof.Gen.KernelIdeal.Points
import Idealize.ShloMosaic.Lib.Pipeline.FrameBody

noncomputable section

namespace Cert.KernelIdeal.Hub

open Idealize.ShloMosaic Idealize.ShloMosaic.TcCoe
open Idealize.SL Idealize.SL.Sem
open Cert.KernelIdeal Cert.KernelIdeal.Gen

variable {F : FTy → Type} [FloatOps F]
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r1024x512 : Rect S1024x512 := Rect.unit (s := S1024x512) ![0, 0] S1024x512.size inb_S1024x512_S1024x512_0_0
abbrev r512x256 : Rect S512x256 := Rect.unit (s := S512x256) ![0, 0] S512x256.size inb_S512x256_S512x256_0_0
abbrev r1024x256 : Rect S1024x256 := Rect.unit (s := S1024x256) ![0, 0] S1024x256.size inb_S1024x256_S1024x256_0_0
abbrev r256x128 : Rect S256x128 := Rect.unit (s := S256x128) ![0, 0] S256x128.size inb_S256x128_S256x128_0_0
abbrev r1024x128 : Rect S1024x128 := Rect.unit (s := S1024x128) ![0, 0] S1024x128.size inb_S1024x128_S1024x128_0_0
abbrev r1024x64 : Rect S1024x64 := Rect.unit (s := S1024x64) ![0, 0] S1024x64.size inb_S1024x64_S1024x64_0_0
abbrev r1024x1024 : Rect S1024x1024 := Rect.unit (s := S1024x1024) ![0, 0] S1024x1024.size inb_S1024x1024_S1024x1024_0_0

def out0 (x : Vec F S1024x512 .f32) (w : Vec F S512x256 .f32) : Vec F S1024x256 .f32 :=
  View.canon [⟨r1024x256, k0_pay1 (View.ld x r1024x512) (View.ld w r512x256)⟩]

def out2 (x : Vec F S1024x256 .f32) (w : Vec F S256x128 .f32) : Vec F S1024x128 .f32 :=
  View.canon [⟨r1024x128, k2_pay1 (View.ld x r1024x256) (View.ld w r256x128)⟩]

def out4 (mean logstd noise : Vec F S1024x64 .f32) : Vec F S1024x64 .f32 :=
  View.canon [⟨r1024x64, k4_pay1 (View.ld mean r1024x64) (View.ld noise r1024x64) (View.ld logstd r1024x64)⟩]

def out5 (zm zn : Vec F S1024x64 .f32) : Vec F S1024x1024 .f32 :=
  View.canon [⟨r1024x1024, k5_pay1 (View.ld zm r1024x64) (View.ld zn r1024x64)⟩]

def acc1 (c : Dev nD) : (n : ℕ) → n < cfg1.N → Vec F S2048x256 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩)
      (if (n + 1) % 4 = 0 then k1_pay1 (F := F) else acc1 c n (Nat.lt_of_succ_lt h))

def out1 (c : Dev nD) (t : Fin cfg1.N) : Vec F S2048x256 .f32 :=
  k1_pay3 (iblk1 V c 2 t) (acc1 V c t.val t.isLt)

def acc3 (c : Dev nD) : (n : ℕ) → n < cfg3.N → Vec F S2048x128 .f32
  | 0, h => k3_pay2 (iblk3 V c 0 ⟨0, h⟩) (iblk3 V c 1 ⟨0, h⟩) (k3_pay1 (F := F))
  | n + 1, h => k3_pay2 (iblk3 V c 0 ⟨n + 1, h⟩) (iblk3 V c 1 ⟨n + 1, h⟩)
      (if (n + 1) % 4 = 0 then k3_pay1 (F := F) else acc3 c n (Nat.lt_of_succ_lt h))

def out3 (c : Dev nD) (t : Fin cfg3.N) : Vec F S2048x128 .f32 :=
  k3_pay3 (iblk3 V c 2 t) (acc3 V c t.val t.isLt)

end Cert.KernelIdeal.Hub

end
-- ==== Proof.LibReg.lean ====
import Idealize.ShloMosaic.Lib.Pipeline.FrameBody
import Idealize.ShloMosaic.Lib.Pipeline.Value

namespace Cert.LibReg

open Idealize.ShloMosaic Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} [∀ e, Nonempty (Val e)]
variable {Ix : Type} [DecidableEq Ix] {Name : Type} [DecidableEq Name] {U : Type} [URA U] {Lvl : Type}

theorem hz : (![0, 0] : Fin 2 → Nat) = fun _ => 0 := funext fun a => by fin_cases a <;> rfl

/-- Contents that read X through a memref are owned at X. -/
theorem owns_of_read {c : Thread nD τ} {sp : Space} {sh : Shape} {e : EltTy} {m : Memref sig c.2.kind sp sh e}
    {q : PosShare TreeShare} {f : m.view.ty.Contents Val} {X : sh.Idx → Val e} (h : m.view.read Val f = X) :
    (m.view.loc c ↦[m.view.set]{q} f : sProp (MT nD τ sig Ix Val Name U Lvl))
      ⊢ iprop(∃ f, ⌜m.view.read Val f = X⌝ ∗ (m.view.loc c ↦[m.view.set]{q} f)) :=
  h ▸ owns_intro c m q f

/-- After a last store through the whole shape the view reads that store's payload. -/
theorem read_store_whole {κ : Kind} {sp : Space} {S : Shape} {e : EltTy} (v : View sig κ sp S e) (f : v.ty.Contents Val)
    {off : Fin S.rank → Nat} (h : off = fun _ => 0) (inb : ∀ a, off a + S.size a ≤ S.size a) (w : S.Idx → Val e)
    (L : List (View.Piece Val S e)) :
    v.read Val (v.writes Val f (⟨Rect.unit off S.size inb, w⟩ :: L)) = w :=
  (View.read_writes_eq_canon _ _ _ fun y => ⟨_, List.Mem.head _, View.mem_set_unit_zero h inb y⟩).trans
    (View.canon_cons_unit_zero h inb w L)

end Cert.LibReg
-- ==== Proof.KI.Reg0.lean ====
import proofs.«419268_j46583215292539_1_alg».proof.Proof.Gen.KernelIdeal.Launch
import proofs.«419268_j46583215292539_1_alg».proof.Proof.Gen.KernelIdeal.Skeleton
import proofs.«419268_j46583215292539_1_alg».proof.Proof.Gen.KernelIdeal.Points
import proofs.«419268_j46583215292539_1_alg».proof.Proof.KI.Hub
import proofs.«419268_j46583215292539_1_alg».proof.Proof.LibReg
import Idealize.ShloMosaic.Lib.Tactic

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hub Cert.LibReg

variable {F : FTy → Type} [FloatOps F]

local notation "𝕄" => MT nD τ sig Unit (Elt F) ℕ (UR sig nD τ) ℕ

variable (V : (c : Dev nD) → (b : Ref sig .tc) → Buf (Elt F) ((c : Thread nD τ).loc b))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_out (c : Dev nD) (t : Fin cfg0.N) :
    (dat0 V c).after 2 t = out0 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

set_option maxHeartbeats 1000000 in
theorem body_obligation0 (c : Dev nD) : BodyObligation (dat0 (F := F) V c) (defs₀ (F := F)) Variants.none () Set.univ := fun t => by
  rw [bigSep_W0, bigSep_W0]
  simp only [before0_0, before0_1]
  rw [show (dat0 V c).Φ t.succ = (dat0 V c).Φ t.castSucc from rfl,
    show (dat0 V c).owesAt () t.succ = (dat0 V c).owesAt () t.castSucc from rfl, after0_0, after0_1, after0_out]
  generalize iblk0 V c 0 t = x
  generalize iblk0 V c 1 t = w
  show _ ⊢ wp _ _ _ (bodyAt0 t) _
  unfold bodyAt0
  simp only [cc0__matmul_kernel_eq_skeleton]; unfold cc0__matmul_kernel_skel
  unfold owns
  iintro ⟨HΦ, Ho, ⟨%d1, %f1, %hf1, H1⟩, ⟨%d2, %f2, %hf2, H2⟩, ⟨%d3, %f3, -, H3⟩⟩
  subst hf1 hf2
  sl_exec
  sl_step
  iframe
  isplitl [H1]; · iapply (owns_of_read rfl) $$ H1
  isplitl [H2]; · iapply (owns_of_read rfl) $$ H2
  iapply (owns_of_read (View.read_writes_eq_canon _ _ _ fun y => ⟨_, .head _, View.mem_set_unit_zero hz inb_S1024x256_S1024x256_0_0 y⟩)) $$ H3

end Cert.KernelIdeal.Reg0

end
-- ==== Proof.KI.Reg1.lean ====
import proofs.«419268_j46583215292539_1_alg».proof.Proof.Gen.KernelIdeal.Launch
import proofs.«419268_j46583215292539_1_alg».proof.Proof.Gen.KernelIdeal.Skeleton
import proofs.«419268_j46583215292539_1_alg».proof.Proof.Gen.KernelIdeal.Points
import proofs.«419268_j46583215292539_1_alg».proof.Proof.KI.Hub
import proofs.«419268_j46583215292539_1_alg».proof.Proof.LibReg
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hub Cert.LibReg

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 := by decide +kernel

abbrev cond1_1 (i : grid1.Coords) : Prop := k1_cond2 i = 1#1
theorem hcond1_1 : ∀ t : Fin cfg1.N, cond1_1 (grid1.coords t) ↔ t.val % 4 = 3 := by decide +kernel

theorem idle1_at : ∀ t : Fin cfg1.N, cfg1.idle 0 (grid1.coords t) = false ∧ cfg1.idle 1 (grid1.coords t) = false
    ∧ cfg1.idle 2 (grid1.coords t) = false ∧ (t.val % 4 = 3 → cfg1.idle 3 (grid1.coords t) = false)
    ∧ (¬t.val % 4 = 3 → cfg1.idle 3 (grid1.coords t) = true ∧ (cfg1.win 3).flush t = false) := by decide +kernel

abbrev scM1 : Memref sig .tc .vmem S2048x256 .f32 := Memref.whole cc1_scratch0

abbrev inv1 (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

theorem PhiA1_eq (c : Dev nD) :
    (Pipeline.ΦA spec1 c : sProp 𝕄) = inv1 c iprop(∃ d, owns (c : Thread nD τ) scM1 fullShare d) := by
  unfold Pipeline.ΦA; rw [scopedRest1_split]; simp only [scM1, owns_whole]; try rfl

theorem sound_kernel1 {c : Dev nD} {E : Set ℕ} {i : grid1.Coords}
    {arg2 : Memref sig .tc .vmem S2048x2048 .bf16} {harg2 : arg2.IsWhole} {arg3 : Memref sig .tc .vmem S2048x256 .f32} {harg3 : arg3.IsWhole}
    {arg4 : Memref sig .tc .vmem S1x256 .f32} {harg4 : arg4.IsWhole} {arg5 : Memref sig .tc .vmem S2048x256 .f32} {harg5 : arg5.IsWhole}
    {arg6 : Memref sig .tc .vmem S2048x256 .f32} {harg6 : arg6.IsWhole}
    {x0 : Vec F S2048x2048 .bf16} {x1 : Vec F S2048x256 .f32} {x2 : Vec F S1x256 .f32} {xi3 xs z y : Vec F S2048x256 .f32}
    (hc : cond1_0 i ∧ ¬cond1_1 i ∧ z = k1_pay1 ∧ y = xi3 ∨ ¬cond1_0 i ∧ ¬cond1_1 i ∧ z = xs ∧ y = xi3
      ∨ ¬cond1_0 i ∧ cond1_1 i ∧ z = xs ∧ y = k1_pay3 x2 (k1_pay2 x0 x1 xs))
    {K : PUnit → sProp 𝕄} :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
        ∗ owns (c : Thread nD τ) arg5 fullShare y ∗ owns (c : Thread nD τ) arg6 fullShare (k1_pay2 x0 x1 z)) -∗ K ⟨⟩))
      ⊢ wp frame (wpE (defs₀ (F := F)) Variants.none c none) E (cc1__gcn_kernel i arg2 harg2 arg3 harg3 arg4 harg4 arg5 harg5 arg6 harg6) K := by
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  rcases hc with ⟨hc0, hc1, hz', hy⟩ | ⟨hc0, hc1, hz', hy⟩ | ⟨hc0, hc1, hz', hy⟩ <;>
  ( simp only [cc1__gcn_kernel_eq_skeleton]; unfold cc1__gcn_kernel_skel
    sl_exec (disch := first | exact hc0 | exact hc1)
    sl_step
    iapply Hk
    isplitl [H0]; · iapply (owns_of_read rfl) $$ H0
    isplitl [H1]; · iapply (owns_of_read rfl) $$ H1
    isplitl [H2]; · iapply (owns_of_read rfl) $$ H2
    isplitl [H3]
    all_goals first | iapply (owns_of_read ?_) $$ H3 | iapply (owns_of_read ?_) $$ HS
    all_goals subst hz' hy
    all_goals first
      | ( sl_unfold_words
          refine (read_store_whole _ _ hz _ _ _).trans ?_
          simp only [View.readAt_eq_ld, View.ld_unit_zero (S := S2048x2048) hz, View.ld_unit_zero (S := S2048x256) hz,
            View.ld_unit_zero (S := S1x256) hz, View.readCov_unit_zero (S := S2048x256) _ hz] )
      | rfl )

def PhiS (c : Dev nD) : (n : ℕ) → n ≤ cfg1.N → sProp 𝕄
  | 0, _ => Pipeline.ΦA spec1 c
  | n + 1, hn => inv1 c (owns (c : Thread nD τ) scM1 fullShare (acc1 V c n hn))

theorem PhiS_pos (c : Dev nD) (n : ℕ) (h : n ≤ cfg1.N) (hz : n ≠ 0) :
    PhiS V c n h = inv1 c (owns (c : Thread nD τ) scM1 fullShare (acc1 V c (n - 1) (by omega))) := by
  cases n with
  | zero => exact absurd rfl hz
  | succ n => rfl

theorem PhiS_out (c : Dev nD) (n : ℕ) (h : n ≤ cfg1.N) :
    PhiS V c n h ⊢ inv1 c iprop(∃ d, owns (c : Thread nD τ) scM1 fullShare d) := by
  cases n with
  | zero => exact Entails.of_eq (PhiA1_eq c)
  | succ n =>
    unfold PhiS inv1
    iintro ⟨⟨HS, HR⟩, Hg⟩
    iframe
    iexists _; iexact HS

theorem acc1_eq (c : Dev nD) (t : Fin cfg1.N) :
    acc1 V c t.val t.isLt = k1_pay2 (iblk1 V c 0 t) (iblk1 V c 1 t)
      (if t.val % 4 = 0 then k1_pay1 else acc1 V c (t.val - 1) (Nat.lt_of_le_of_lt (Nat.sub_le _ _) t.isLt)) := by
  obtain ⟨n, hn⟩ := t
  cases n <;> rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_out (c : Dev nD) (t : Fin cfg1.N) (h3 : t.val % 4 = 3) : (dat1 V c).after 3 t = out1 V c t := by dsimp only [dat1]

theorem before1 (c : Dev nD) (t : Fin cfg1.N) :
    (∀ d, (dat1 V c).before 0 t d = iblk1 V c 0 t) ∧ (∀ d, (dat1 V c).before 1 t d = iblk1 V c 1 t)
      ∧ ∀ d, (dat1 V c).before 2 t d = iblk1 V c 2 t := by
  refine ⟨fun d => ?_, fun d => ?_, fun d => ?_⟩ <;>
  exact ((dat1 V c).before_in_eq_fetched _ rfl (fun _ => rfl) (fun _ _ _ => rfl)
    (fun t => by dsimp only [dat1]; unfold Dat.blockOf iblk1; try rfl) t d).trans
    (by unfold Dat.fetched Dat.blockOf iblk1; rw [A_eq1]; try rfl)

theorem after1_in (c : Dev nD) (t : Fin cfg1.N) :
    (dat1 V c).leavesExact 0 t = owns (c : Thread nD τ) (st1_0 t) fullShare (iblk1 V c 0 t)
      ∧ (dat1 V c).leavesExact 1 t = owns (c : Thread nD τ) (st1_1 t) fullShare (iblk1 V c 1 t)
      ∧ (dat1 V c).leavesExact 2 t = owns (c : Thread nD τ) (st1_2 t) fullShare (iblk1 V c 2 t) := by
  refine ⟨?_, ?_, ?_⟩ <;>
  (unfold Dat.leavesExact; simp only [(idle1_at t).1, (idle1_at t).2.1, (idle1_at t).2.2.1]; rfl)

def bodyPre1 (c : Dev nD) (t : Fin cfg1.N) : sProp 𝕄 :=
  iprop(PhiS V c t.val (Nat.le_of_lt t.isLt) ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop(inv1 c (owns (c : Thread nD τ) scM1 fullShare (acc1 V c t.val t.isLt)) ∗ (dat1 V c).owesAt () t.castSucc
    ∗ (dat1 V c).leavesExact 0 t
    ∗ (dat1 V c).leavesExact 1 t
    ∗ (dat1 V c).leavesExact 2 t
    ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [(before1 V c t).1, (before1 V c t).2.1, (before1 V c t).2.2]
  rw [(after1_in V c t).1, (after1_in V c t).2.1, (after1_in V c t).2.2]
  by_cases h3 : t.val % 4 = 3
  · have h0 : ¬t.val % 4 = 0 := by omega
    rw [show (dat1 V c).leavesExact 3 t = owns (c : Thread nD τ) (st1_3 t) fullShare ((dat1 V c).after 3 t) from by
      unfold Dat.leavesExact; rw [(idle1_at t).2.2.2.1 h3], after1_out V c t h3]
    unfold out1
    rw [acc1_eq V c t, if_neg h0, PhiS_pos V c _ _ (by omega)]
    unfold inv1
    iintro ⟨⟨⟨HS, HR⟩, Hg⟩, Ho, ⟨%d0, H0⟩, ⟨%d1, H1⟩, ⟨%d2, H2⟩, ⟨%d3, H3⟩⟩
    iapply (sound_kernel1
      (.inr (.inr ⟨fun h => h0 ((hcond1_0 t).mp h), (hcond1_1 t).mpr h3, rfl, rfl⟩)))
    iframe
    iintro ⟨H0, H1, H2, H3, HS⟩
    iframe
  · rw [Dat.leavesExact_idle (dat1 V c) 3 t ((idle1_at t).2.2.2.2 h3).1 ((idle1_at t).2.2.2.2 h3).2]
    by_cases h0 : t.val % 4 = 0
    case' pos =>
      rw [acc1_eq V c t, if_pos h0]
      iintro ⟨HΦ, Ho, ⟨%d0, H0⟩, ⟨%d1, H1⟩, ⟨%d2, H2⟩, ⟨%d3, H3⟩⟩
      ihave HΦ := (PhiS_out V c _ _) $$ HΦ
      unfold inv1
      icases HΦ with ⟨⟨⟨%ds, HS⟩, HR⟩, Hg⟩
      iapply (sound_kernel1
        (.inl ⟨(hcond1_0 t).mpr h0, fun h => h3 ((hcond1_1 t).mp h), rfl, rfl⟩))
    case' neg =>
      rw [acc1_eq V c t, if_neg h0, PhiS_pos V c _ _ fun e => h0 (by rw [e])]
      unfold inv1
      iintro ⟨⟨⟨HS, HR⟩, Hg⟩, Ho, ⟨%d0, H0⟩, ⟨%d1, H1⟩, ⟨%d2, H2⟩, ⟨%d3, H3⟩⟩
      iapply (sound_kernel1
        (.inr (.inl ⟨fun h => h0 ((hcond1_0 t).mp h), fun h => h3 ((hcond1_1 t).mp h), rfl, rfl⟩)))
    all_goals
      iframe
      iintro ⟨H0, H1, H2, H3, HS⟩
      iframe
      iexists _; iexact H3

theorem body_obligation1 (c : Dev nD) : BodyObligation (dat1 (F := F) V c) (defs₀ (F := F)) Variants.none () Set.univ := fun t => by
  rw [bigSep_W1, bigSep_W1]
  exact sound_body1 V c t

theorem hout1 (c : Dev nD) : (dat1 V c).Φ (Fin.last cfg1.N) ⊢ Pipeline.ΦA spec1 c :=
  (PhiS_out V c cfg1.N (Nat.le_refl _)).trans (Entails.of_eq (PhiA1_eq c).symm)

end Cert.KernelIdeal.Reg1

end
-- ==== Proof.KI.Reg2.lean ====
import proofs.«419268_j46583215292539_1_alg».proof.Proof.Gen.KernelIdeal.Launch
import proofs.«419268_j46583215292539_1_alg».proof.Proof.Gen.KernelIdeal.Skeleton
import proofs.«419268_j46583215292539_1_alg».proof.Proof.Gen.KernelIdeal.Points
import proofs.«419268_j46583215292539_1_alg».proof.Proof.KI.Hub
import proofs.«419268_j46583215292539_1_alg».proof.Proof.LibReg
import Idealize.ShloMosaic.Lib.Tactic

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hub Cert.LibReg

variable {F : FTy → Type} [FloatOps F]

local notation "𝕄" => MT nD τ sig Unit (Elt F) ℕ (UR sig nD τ) ℕ

variable (V : (c : Dev nD) → (b : Ref sig .tc) → Buf (Elt F) ((c : Thread nD τ).loc b))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_out (c : Dev nD) (t : Fin cfg2.N) :
    (dat2 V c).after 2 t = out2 (iblk2 V c 0 t) (iblk2 V c 1 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

set_option maxHeartbeats 1000000 in
theorem body_obligation2 (c : Dev nD) : BodyObligation (dat2 (F := F) V c) (defs₀ (F := F)) Variants.none () Set.univ := fun t => by
  rw [bigSep_W2, bigSep_W2]
  simp only [before2_0, before2_1]
  rw [show (dat2 V c).Φ t.succ = (dat2 V c).Φ t.castSucc from rfl,
    show (dat2 V c).owesAt () t.succ = (dat2 V c).owesAt () t.castSucc from rfl, after2_0, after2_1, after2_out]
  generalize iblk2 V c 0 t = x
  generalize iblk2 V c 1 t = w
  show _ ⊢ wp _ _ _ (bodyAt2 t) _
  unfold bodyAt2
  simp only [cc2__matmul_kernel_eq_skeleton]; unfold cc2__matmul_kernel_skel
  unfold owns
  iintro ⟨HΦ, Ho, ⟨%d1, %f1, %hf1, H1⟩, ⟨%d2, %f2, %hf2, H2⟩, ⟨%d3, %f3, -, H3⟩⟩
  subst hf1 hf2
  sl_exec
  sl_step
  iframe
  isplitl [H1]; · iapply (owns_of_read rfl) $$ H1
  isplitl [H2]; · iapply (owns_of_read rfl) $$ H2
  iapply (owns_of_read (View.read_writes_eq_canon _ _ _ fun y => ⟨_, .head _, View.mem_set_unit_zero hz inb_S1024x128_S1024x128_0_0 y⟩)) $$ H3

end Cert.KernelIdeal.Reg2

end
-- ==== Proof.KI.Reg3.lean ====
import proofs.«419268_j46583215292539_1_alg».proof.Proof.Gen.KernelIdeal.Launch
import proofs.«419268_j46583215292539_1_alg».proof.Proof.Gen.KernelIdeal.Skeleton
import proofs.«419268_j46583215292539_1_alg».proof.Proof.Gen.KernelIdeal.Points
import proofs.«419268_j46583215292539_1_alg».proof.Proof.KI.Hub
import proofs.«419268_j46583215292539_1_alg».proof.Proof.LibReg
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Reg3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hub Cert.LibReg

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop :=
  (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 := by decide +kernel

abbrev cond3_1 (i : grid3.Coords) : Prop := k3_cond2 i = 1#1
theorem hcond3_1 : ∀ t : Fin cfg3.N, cond3_1 (grid3.coords t) ↔ t.val % 4 = 3 := by decide +kernel

theorem idle3_at : ∀ t : Fin cfg3.N, cfg3.idle 0 (grid3.coords t) = false ∧ cfg3.idle 1 (grid3.coords t) = false
    ∧ cfg3.idle 2 (grid3.coords t) = false ∧ (t.val % 4 = 3 → cfg3.idle 3 (grid3.coords t) = false)
    ∧ (¬t.val % 4 = 3 → cfg3.idle 3 (grid3.coords t) = true ∧ (cfg3.win 3).flush t = false) := by decide +kernel

abbrev scM3 : Memref sig .tc .vmem S2048x128 .f32 := Memref.whole cc3_scratch0

abbrev inv3 (c : Dev nD) (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq (c : Dev nD) :
    (Pipeline.ΦA spec3 c : sProp 𝕄) = inv3 c iprop(∃ d, owns (c : Thread nD τ) scM3 fullShare d) := by
  unfold Pipeline.ΦA; rw [scopedRest3_split]; simp only [scM3, owns_whole]; try rfl

theorem sound_kernel3 {c : Dev nD} {E : Set ℕ} {i : grid3.Coords}
    {arg2 : Memref sig .tc .vmem S2048x2048 .bf16} {harg2 : arg2.IsWhole} {arg3 : Memref sig .tc .vmem S2048x128 .f32} {harg3 : arg3.IsWhole}
    {arg4 : Memref sig .tc .vmem S1x128 .f32} {harg4 : arg4.IsWhole} {arg5 : Memref sig .tc .vmem S2048x128 .f32} {harg5 : arg5.IsWhole}
    {arg6 : Memref sig .tc .vmem S2048x128 .f32} {harg6 : arg6.IsWhole}
    {x0 : Vec F S2048x2048 .bf16} {x1 : Vec F S2048x128 .f32} {x2 : Vec F S1x128 .f32} {xi3 xs z y : Vec F S2048x128 .f32}
    (hc : cond3_0 i ∧ ¬cond3_1 i ∧ z = k3_pay1 ∧ y = xi3 ∨ ¬cond3_0 i ∧ ¬cond3_1 i ∧ z = xs ∧ y = xi3
      ∨ ¬cond3_0 i ∧ cond3_1 i ∧ z = xs ∧ y = k3_pay3 x2 (k3_pay2 x0 x1 xs))
    {K : PUnit → sProp 𝕄} :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
        ∗ owns (c : Thread nD τ) arg5 fullShare y ∗ owns (c : Thread nD τ) arg6 fullShare (k3_pay2 x0 x1 z)) -∗ K ⟨⟩))
      ⊢ wp frame (wpE (defs₀ (F := F)) Variants.none c none) E (cc3__gcn_kernel i arg2 harg2 arg3 harg3 arg4 harg4 arg5 harg5 arg6 harg6) K := by
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  rcases hc with ⟨hc0, hc1, hz', hy⟩ | ⟨hc0, hc1, hz', hy⟩ | ⟨hc0, hc1, hz', hy⟩ <;>
  ( simp only [cc3__gcn_kernel_eq_skeleton]; unfold cc3__gcn_kernel_skel
    sl_exec (disch := first | exact hc0 | exact hc1)
    sl_step
    iapply Hk
    isplitl [H0]; · iapply (owns_of_read rfl) $$ H0
    isplitl [H1]; · iapply (owns_of_read rfl) $$ H1
    isplitl [H2]; · iapply (owns_of_read rfl) $$ H2
    isplitl [H3]
    all_goals first | iapply (owns_of_read ?_) $$ H3 | iapply (owns_of_read ?_) $$ HS
    all_goals subst hz' hy
    all_goals first
      | ( sl_unfold_words
          refine (read_store_whole _ _ hz _ _ _).trans ?_
          simp only [View.readAt_eq_ld, View.ld_unit_zero (S := S2048x2048) hz, View.ld_unit_zero (S := S2048x128) hz,
            View.ld_unit_zero (S := S1x128) hz, View.readCov_unit_zero (S := S2048x128) _ hz] )
      | rfl )

def PhiS (c : Dev nD) : (n : ℕ) → n ≤ cfg3.N → sProp 𝕄
  | 0, _ => Pipeline.ΦA spec3 c
  | n + 1, hn => inv3 c (owns (c : Thread nD τ) scM3 fullShare (acc3 V c n hn))

theorem PhiS_pos (c : Dev nD) (n : ℕ) (h : n ≤ cfg3.N) (hz : n ≠ 0) :
    PhiS V c n h = inv3 c (owns (c : Thread nD τ) scM3 fullShare (acc3 V c (n - 1) (by omega))) := by
  cases n with
  | zero => exact absurd rfl hz
  | succ n => rfl

theorem PhiS_out (c : Dev nD) (n : ℕ) (h : n ≤ cfg3.N) :
    PhiS V c n h ⊢ inv3 c iprop(∃ d, owns (c : Thread nD τ) scM3 fullShare d) := by
  cases n with
  | zero => exact Entails.of_eq (PhiA3_eq c)
  | succ n =>
    unfold PhiS inv3
    iintro ⟨⟨HS, HR⟩, Hg⟩
    iframe
    iexists _; iexact HS

theorem acc3_eq (c : Dev nD) (t : Fin cfg3.N) :
    acc3 V c t.val t.isLt = k3_pay2 (iblk3 V c 0 t) (iblk3 V c 1 t)
      (if t.val % 4 = 0 then k3_pay1 else acc3 V c (t.val - 1) (Nat.lt_of_le_of_lt (Nat.sub_le _ _) t.isLt)) := by
  obtain ⟨n, hn⟩ := t
  cases n <;> rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 V c t
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_out (c : Dev nD) (t : Fin cfg3.N) (h3 : t.val % 4 = 3) : (dat3 V c).after 3 t = out3 V c t := by dsimp only [dat3]

theorem before3 (c : Dev nD) (t : Fin cfg3.N) :
    (∀ d, (dat3 V c).before 0 t d = iblk3 V c 0 t) ∧ (∀ d, (dat3 V c).before 1 t d = iblk3 V c 1 t)
      ∧ ∀ d, (dat3 V c).before 2 t d = iblk3 V c 2 t := by
  refine ⟨fun d => ?_, fun d => ?_, fun d => ?_⟩ <;>
  exact ((dat3 V c).before_in_eq_fetched _ rfl (fun _ => rfl) (fun _ _ _ => rfl)
    (fun t => by dsimp only [dat3]; unfold Dat.blockOf iblk3; try rfl) t d).trans
    (by unfold Dat.fetched Dat.blockOf iblk3; rw [A_eq3]; try rfl)

theorem after3_in (c : Dev nD) (t : Fin cfg3.N) :
    (dat3 V c).leavesExact 0 t = owns (c : Thread nD τ) (st3_0 t) fullShare (iblk3 V c 0 t)
      ∧ (dat3 V c).leavesExact 1 t = owns (c : Thread nD τ) (st3_1 t) fullShare (iblk3 V c 1 t)
      ∧ (dat3 V c).leavesExact 2 t = owns (c : Thread nD τ) (st3_2 t) fullShare (iblk3 V c 2 t) := by
  refine ⟨?_, ?_, ?_⟩ <;>
  (unfold Dat.leavesExact; simp only [(idle3_at t).1, (idle3_at t).2.1, (idle3_at t).2.2.1]; rfl)

def bodyPre3 (c : Dev nD) (t : Fin cfg3.N) : sProp 𝕄 :=
  iprop(PhiS V c t.val (Nat.le_of_lt t.isLt) ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop(inv3 c (owns (c : Thread nD τ) scM3 fullShare (acc3 V c t.val t.isLt)) ∗ (dat3 V c).owesAt () t.castSucc
    ∗ (dat3 V c).leavesExact 0 t
    ∗ (dat3 V c).leavesExact 1 t
    ∗ (dat3 V c).leavesExact 2 t
    ∗ (dat3 V c).leavesExact 3 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [(before3 V c t).1, (before3 V c t).2.1, (before3 V c t).2.2]
  rw [(after3_in V c t).1, (after3_in V c t).2.1, (after3_in V c t).2.2]
  by_cases h3 : t.val % 4 = 3
  · have h0 : ¬t.val % 4 = 0 := by omega
    rw [show (dat3 V c).leavesExact 3 t = owns (c : Thread nD τ) (st3_3 t) fullShare ((dat3 V c).after 3 t) from by
      unfold Dat.leavesExact; rw [(idle3_at t).2.2.2.1 h3], after3_out V c t h3]
    unfold out3
    rw [acc3_eq V c t, if_neg h0, PhiS_pos V c _ _ (by omega)]
    unfold inv3
    iintro ⟨⟨⟨HS, HR⟩, Hg⟩, Ho, ⟨%d0, H0⟩, ⟨%d1, H1⟩, ⟨%d2, H2⟩, ⟨%d3, H3⟩⟩
    iapply (sound_kernel3
      (.inr (.inr ⟨fun h => h0 ((hcond3_0 t).mp h), (hcond3_1 t).mpr h3, rfl, rfl⟩)))
    iframe
    iintro ⟨H0, H1, H2, H3, HS⟩
    iframe
  · rw [Dat.leavesExact_idle (dat3 V c) 3 t ((idle3_at t).2.2.2.2 h3).1 ((idle3_at t).2.2.2.2 h3).2]
    by_cases h0 : t.val % 4 = 0
    case' pos =>
      rw [acc3_eq V c t, if_pos h0]
      iintro ⟨HΦ, Ho, ⟨%d0, H0⟩, ⟨%d1, H1⟩, ⟨%d2, H2⟩, ⟨%d3, H3⟩⟩
      ihave HΦ := (PhiS_out V c _ _) $$ HΦ
      unfold inv3
      icases HΦ with ⟨⟨⟨%ds, HS⟩, HR⟩, Hg⟩
      iapply (sound_kernel3
        (.inl ⟨(hcond3_0 t).mpr h0, fun h => h3 ((hcond3_1 t).mp h), rfl, rfl⟩))
    case' neg =>
      rw [acc3_eq V c t, if_neg h0, PhiS_pos V c _ _ fun e => h0 (by rw [e])]
      unfold inv3
      iintro ⟨⟨⟨HS, HR⟩, Hg⟩, Ho, ⟨%d0, H0⟩, ⟨%d1, H1⟩, ⟨%d2, H2⟩, ⟨%d3, H3⟩⟩
      iapply (sound_kernel3
        (.inr (.inl ⟨fun h => h0 ((hcond3_0 t).mp h), fun h => h3 ((hcond3_1 t).mp h), rfl, rfl⟩)))
    all_goals
      iframe
      iintro ⟨H0, H1, H2, H3, HS⟩
      iframe
      iexists _; iexact H3

theorem body_obligation3 (c : Dev nD) : BodyObligation (dat3 (F := F) V c) (defs₀ (F := F)) Variants.none () Set.univ := fun t => by
  rw [bigSep_W3, bigSep_W3]
  exact sound_body3 V c t

theorem hout3 (c : Dev nD) : (dat3 V c).Φ (Fin.last cfg3.N) ⊢ Pipeline.ΦA spec3 c :=
  (PhiS_out V c cfg3.N (Nat.le_refl _)).trans (Entails.of_eq (PhiA3_eq c).symm)

end Cert.KernelIdeal.Reg3

end
-- ==== Proof.KI.Reg4.lean ====
import proofs.«419268_j46583215292539_1_alg».proof.Proof.Gen.KernelIdeal.Launch
import proofs.«419268_j46583215292539_1_alg».proof.Proof.Gen.KernelIdeal.Skeleton
import proofs.«419268_j46583215292539_1_alg».proof.Proof.Gen.KernelIdeal.Points
import proofs.«419268_j46583215292539_1_alg».proof.Proof.KI.Hub
import proofs.«419268_j46583215292539_1_alg».proof.Proof.LibReg
import Idealize.ShloMosaic.Lib.Tactic

set_option maxRecDepth 16384

noncomputable section

namespace Cert.KernelIdeal.Reg4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hub Cert.LibReg

variable {F : FTy → Type} [FloatOps F]

local notation "𝕄" => MT nD τ sig Unit (Elt F) ℕ (UR sig nD τ) ℕ

variable (V : (c : Dev nD) → (b : Ref sig .tc) → Buf (Elt F) ((c : Thread nD τ).loc b))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_out (c : Dev nD) (t : Fin cfg4.N) :
    (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

set_option maxHeartbeats 1000000 in
theorem body_obligation4 (c : Dev nD) : BodyObligation (dat4 (F := F) V c) (defs₀ (F := F)) Variants.none () Set.univ := fun t => by
  rw [bigSep_W4, bigSep_W4]
  simp only [before4_0, before4_1, before4_2]
  rw [show (dat4 V c).Φ t.succ = (dat4 V c).Φ t.castSucc from rfl,
    show (dat4 V c).owesAt () t.succ = (dat4 V c).owesAt () t.castSucc from rfl, after4_0, after4_1, after4_2, after4_out]
  generalize iblk4 V c 0 t = x0
  generalize iblk4 V c 1 t = x1
  generalize iblk4 V c 2 t = x2
  show _ ⊢ wp _ _ _ (bodyAt4 t) _
  unfold bodyAt4
  simp only [cc4__reparam_kernel_eq_skeleton]; unfold cc4__reparam_kernel_skel
  unfold owns
  iintro ⟨HΦ, Ho, ⟨%d1, %f1, %hf1, H1⟩, ⟨%d2, %f2, %hf2, H2⟩, ⟨%d3, %f3, %hf3, H3⟩, ⟨%d4, %f4, -, H4⟩⟩
  subst hf1 hf2 hf3
  sl_exec
  sl_step
  iframe
  isplitl [H1]; · iapply (owns_of_read rfl) $$ H1
  isplitl [H2]; · iapply (owns_of_read rfl) $$ H2
  isplitl [H3]; · iapply (owns_of_read rfl) $$ H3
  iapply (owns_of_read (View.read_writes_eq_canon _ _ _ fun y => ⟨_, .head _, View.mem_set_unit_zero hz inb_S1024x64_S1024x64_0_0 y⟩)) $$ H4

end Cert.KernelIdeal.Reg4

end
-- ==== Proof.KI.Reg5.lean ====
import proofs.«419268_j46583215292539_1_alg».proof.Proof.Gen.KernelIdeal.Launch
import proofs.«419268_j46583215292539_1_alg».proof.Proof.Gen.KernelIdeal.Skeleton
import proofs.«419268_j46583215292539_1_alg».proof.Proof.Gen.KernelIdeal.Points
import proofs.«419268_j46583215292539_1_alg».proof.Proof.KI.Hub
import proofs.«419268_j46583215292539_1_alg».proof.Proof.LibReg
import Idealize.ShloMosaic.Lib.Tactic

set_option maxRecDepth 16384

noncomputable section

namespace Cert.KernelIdeal.Reg5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibReg

variable {F : FTy → Type} [FloatOps F]

local notation "𝕄" => MT nD τ sig Unit (Elt F) ℕ (UR sig nD τ) ℕ

variable (V : (c : Dev nD) → (b : Ref sig .tc) → Buf (Elt F) ((c : Thread nD τ).loc b))

def dat5 (c : Dev nD) : Dat τ (Elt F) Unit ℕ (UR sig nD τ) ℕ cfg5 c where
  A w := V c (Pipeline.arrRef spec5 w)
  after w t := match w with
    | ⟨0, _⟩ => Hub.iblk5 V c 0 t
    | ⟨1, _⟩ => Hub.iblk5 V c 1 t
    | ⟨2, _⟩ => Hub.out5 (Hub.iblk5 V c 0 t) (Hub.iblk5 V c 1 t)
  Φ _ := Pipeline.ΦA spec5 c
  q w := match w with
    | ⟨0, _⟩ => fullShare.left
    | ⟨1, _⟩ => fullShare.right
    | ⟨2, _⟩ => fullShare
  owed _ := 0

theorem A_eq5 (c : Dev nD) (w : Fin cfg5.W) : (dat5 V c).A w = V c (Pipeline.arrRef spec5 w) := rfl

theorem after5_0 (c : Dev nD) (t : Fin cfg5.N) : (dat5 V c).after 0 t = Hub.iblk5 V c 0 t := by dsimp only [dat5]
theorem after5_1 (c : Dev nD) (t : Fin cfg5.N) : (dat5 V c).after 1 t = Hub.iblk5 V c 1 t := by dsimp only [dat5]
theorem after5_2 (c : Dev nD) (t : Fin cfg5.N) :
    (dat5 V c).after 2 t = Hub.out5 (Hub.iblk5 V c 0 t) (Hub.iblk5 V c 1 t) := by dsimp only [dat5]

theorem before5_0 (c : Dev nD) (t : Fin cfg5.N) (d) : (dat5 V c).before 0 t d = Hub.iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = Hub.iblk5 V c 1 t :=
  (dat5 V c).before_in_eq_fetched 1 rfl (fun _ => rfl) (fun _ _ _ => rfl) (fun _ => rfl) t d

set_option maxHeartbeats 1000000 in
theorem body_obligation5 (c : Dev nD) : BodyObligation (dat5 (F := F) V c) (defs₀ (F := F)) Variants.none () Set.univ := fun t => by
  rw [bigSep_W5, bigSep_W5]
  simp only [before5_0, before5_1]
  rw [show (dat5 V c).Φ t.succ = (dat5 V c).Φ t.castSucc from rfl,
    show (dat5 V c).owesAt () t.succ = (dat5 V c).owesAt () t.castSucc from rfl, after5_0, after5_1, after5_2]
  generalize Hub.iblk5 V c 0 t = x0
  generalize Hub.iblk5 V c 1 t = x1
  show _ ⊢ wp _ _ _ (bodyAt5 t) _
  unfold bodyAt5
  simp only [cc5__decode_kernel_eq_skeleton]; unfold cc5__decode_kernel_skel
  unfold owns
  iintro ⟨HΦ, Ho, ⟨%d1, %f1, %hf1, H1⟩, ⟨%d2, %f2, %hf2, H2⟩, ⟨%d3, %f3, -, H3⟩⟩
  subst hf1 hf2
  sl_exec
  sl_step
  iframe
  isplitl [H1]; · iapply (owns_of_read rfl) $$ H1
  isplitl [H2]; · iapply (owns_of_read rfl) $$ H2
  iapply (owns_of_read (View.read_writes_eq_canon _ _ _ fun y => ⟨_, .head _, View.mem_set_unit_zero hz inb_S1024x1024_S1024x1024_0_0 y⟩)) $$ H3

theorem unscopedBufs5 (c : Dev nD) (W : (b : Ref sig .tc) → Buf (Elt F) ((c : Thread nD τ).loc b)) :
    (unscopedBufs c W : sProp 𝕄)
      = iprop(((((c : Thread nD τ).loc (Pipeline.arrRef spec5 0)) ↦{fullShare} W (Pipeline.arrRef spec5 0))
          ∗ (((c : Thread nD τ).loc (Pipeline.arrRef spec5 2)) ↦{fullShare} W (Pipeline.arrRef spec5 2)))
        ∗ Pipeline.unscopedRest spec5 c W) := by
  rw [Pipeline.unscopedBufs_split₀ (fun _ : Fin 1 => cfg5) 0 winFacts₀5.arr_unscoped c W]
  unfold Pipeline.arrBufs
  rw [bigSep_eq_bigSepL_of_eq _ (by decide : Finset.univ.image (Pipeline.arrRef spec5) = [Pipeline.arrRef spec5 0, Pipeline.arrRef spec5 2].toFinset) (by decide)]
  rfl

theorem arrays5 (c : Dev nD) (Fa : (w : Fin cfg5.W) → Buf (Elt F) ((cfg5.win w).arr.view.loc (c : Thread nD τ))) :
    ((dat5 V c).arrays Fa : sProp 𝕄)
      = iprop((((c : Thread nD τ).loc (Pipeline.arrRef spec5 0)) ↦{fullShare.left} Fa 0)
          ∗ (((c : Thread nD τ).loc (Pipeline.arrRef spec5 0)) ↦{fullShare.right} Fa 1)
          ∗ (((c : Thread nD τ).loc (Pipeline.arrRef spec5 2)) ↦{fullShare} Fa 2)) := by
  unfold Dat.arrays Dat.share
  rw [bigSep_W5, (arr_whole5 0).set_eq_univ, (arr_whole5 2).set_eq_univ]
  rfl

theorem arrays_of_unscopedBufs5 (c : Dev nD) (W : (b : Ref sig .tc) → Buf (Elt F) ((c : Thread nD τ).loc b))
    (hA : ∀ w, (dat5 V c).A w = W (Pipeline.arrRef spec5 w)) :
    (unscopedBufs c W : sProp 𝕄)
      ⊢ iprop((dat5 V c).arrays ((dat5 V c).arrAt · 0) ∗ Pipeline.unscopedRest spec5 c W) := by
  rw [unscopedBufs5, arrays5, (dat5 V c).arrAt_in 0 rfl, (dat5 V c).arrAt_in 1 rfl,
    show (dat5 V c).arrAt 2 0 = _ from hA 2, hA 0, show (dat5 V c).A 1 = _ from hA 0]
  iintro ⟨⟨H, H2⟩, $⟩
  ihave H' := (pointsTo_share (PosShare.mem_left_op_right fullShare)).1 $$ H
  icases H' with ⟨Hl, Hr⟩
  iframe

theorem unscopedBufs_of_arrays5 (c : Dev nD) (W W' : (b : Ref sig .tc) → Buf (Elt F) ((c : Thread nD τ).loc b))
    (Fn : (w : Fin cfg5.W) → Buf (Elt F) ((cfg5.win w).arr.view.loc (c : Thread nD τ)))
    (hF : ∀ w, Fn w = W' (Pipeline.arrRef spec5 w))
    (hrest : ∀ b, b ∉ Finset.univ.image (Pipeline.arrRef spec5) → W' b = W b) :
    iprop((dat5 V c).arrays Fn ∗ Pipeline.unscopedRest spec5 c W) ⊢ (unscopedBufs c W' : sProp 𝕄) := by
  rw [unscopedBufs5, arrays5, hF 0, show Fn 1 = W' (Pipeline.arrRef spec5 0) from hF 1, hF 2]
  refine BIClass.sep_mono ?_ (Entails.of_eq (bigSep_congr fun b hb => by rw [hrest b (Finset.mem_sdiff.mp hb).2]))
  iintro ⟨Hl, Hr, $⟩
  iapply (pointsTo_share (PosShare.mem_left_op_right fullShare)).2
  iframe

end Cert.KernelIdeal.Reg5

end
-- ==== Proof.KI.RunBase.lean ====
import proofs.«419268_j46583215292539_1_alg».proof.Proof.Gen.KernelIdeal.Regions
import proofs.«419268_j46583215292539_1_alg».proof.Proof.KI.Reg0
import proofs.«419268_j46583215292539_1_alg».proof.Proof.KI.Reg1
import proofs.«419268_j46583215292539_1_alg».proof.Proof.KI.Reg2
import proofs.«419268_j46583215292539_1_alg».proof.Proof.KI.Reg3
import proofs.«419268_j46583215292539_1_alg».proof.Proof.KI.Reg4
import proofs.«419268_j46583215292539_1_alg».proof.Proof.KI.Reg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.KernelIdeal.Hub
open Cert.KernelIdeal.Reg0 Cert.KernelIdeal.Reg1 Cert.KernelIdeal.Reg2 Cert.KernelIdeal.Reg3 Cert.KernelIdeal.Reg4 Cert.KernelIdeal.Reg5

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

abbrev atLaunch (r : Ref sig .tc) (c : Dev nD) : Buf (Elt F) ((c : Thread nD τ).loc r) := m ((c : Thread nD τ).loc r)

def outsOf (o2 : (c : Dev nD) → Buf (Elt F) ((c : Thread nD τ).loc main_v16)) (o4 : (c : Dev nD) → Buf (Elt F) ((c : Thread nD τ).loc main_v18))
    (o6 : (c : Dev nD) → Buf (Elt F) ((c : Thread nD τ).loc main_v21)) (o8 : (c : Dev nD) → Buf (Elt F) ((c : Thread nD τ).loc main_v23))
    (o10 : (c : Dev nD) → Buf (Elt F) ((c : Thread nD τ).loc main_v26)) (o11 : (c : Dev nD) → Buf (Elt F) ((c : Thread nD τ).loc main_v27)) : Outs (F := F) :=
  fun _ r c =>
    if h : r = main_v16 then h ▸ o2 c else if h : r = main_v18 then h ▸ o4 c else if h : r = main_v21 then h ▸ o6 c
    else if h : r = main_v23 then h ▸ o8 c else if h : r = main_v26 then h ▸ o10 c else if h : r = main_v27 then h ▸ o11 c
    else atLaunch m r c

section OutsOf
variable (o2 : (c : Dev nD) → Buf (Elt F) ((c : Thread nD τ).loc main_v16)) (o4 : (c : Dev nD) → Buf (Elt F) ((c : Thread nD τ).loc main_v18))
    (o6 : (c : Dev nD) → Buf (Elt F) ((c : Thread nD τ).loc main_v21)) (o8 : (c : Dev nD) → Buf (Elt F) ((c : Thread nD τ).loc main_v23))
    (o10 : (c : Dev nD) → Buf (Elt F) ((c : Thread nD τ).loc main_v26)) (o11 : (c : Dev nD) → Buf (Elt F) ((c : Thread nD τ).loc main_v27))
theorem outsOf_16 (J : ℕ) (c : Dev nD) : outsOf m o2 o4 o6 o8 o10 o11 J main_v16 c = o2 c := by
  unfold outsOf; rw [dif_pos rfl]
theorem outsOf_18 (J : ℕ) (c : Dev nD) : outsOf m o2 o4 o6 o8 o10 o11 J main_v18 c = o4 c := by
  unfold outsOf; repeat rw [dif_neg (by decide)]
  rw [dif_pos rfl]
theorem outsOf_21 (J : ℕ) (c : Dev nD) : outsOf m o2 o4 o6 o8 o10 o11 J main_v21 c = o6 c := by
  unfold outsOf; repeat rw [dif_neg (by decide)]
  rw [dif_pos rfl]
theorem outsOf_23 (J : ℕ) (c : Dev nD) : outsOf m o2 o4 o6 o8 o10 o11 J main_v23 c = o8 c := by
  unfold outsOf; repeat rw [dif_neg (by decide)]
  rw [dif_pos rfl]
theorem outsOf_26 (J : ℕ) (c : Dev nD) : outsOf m o2 o4 o6 o8 o10 o11 J main_v26 c = o10 c := by
  unfold outsOf; repeat rw [dif_neg (by decide)]
  rw [dif_pos rfl]
theorem outsOf_27 (J : ℕ) (c : Dev nD) : outsOf m o2 o4 o6 o8 o10 o11 J main_v27 c = o11 c := by
  unfold outsOf; repeat rw [dif_neg (by decide)]
  rw [dif_pos rfl]
end OutsOf

def o2 (c : Dev nD) : Buf (Elt F) ((c : Thread nD τ).loc main_v16) := (dat0 (rd (V1 m)) c).arrAt 2 cfg0.N
abbrev O1 : Outs (F := F) := outsOf m (o2 m) (atLaunch m _) (atLaunch m _) (atLaunch m _) (atLaunch m _) (atLaunch m _)

def o4 (c : Dev nD) : Buf (Elt F) ((c : Thread nD τ).loc main_v18) := (dat1 (rd (V3 m (O1 m))) c).arrAt 3 cfg1.N
abbrev O2 : Outs (F := F) := outsOf m (o2 m) (o4 m) (atLaunch m _) (atLaunch m _) (atLaunch m _) (atLaunch m _)

def o6 (c : Dev nD) : Buf (Elt F) ((c : Thread nD τ).loc main_v21) := (dat2 (rd (V5 m (O2 m))) c).arrAt 2 cfg2.N
abbrev O3 : Outs (F := F) := outsOf m (o2 m) (o4 m) (o6 m) (atLaunch m _) (atLaunch m _) (atLaunch m _)

def o8 (c : Dev nD) : Buf (Elt F) ((c : Thread nD τ).loc main_v23) := (dat3 (rd (V7 m (O3 m))) c).arrAt 3 cfg3.N
abbrev O4 : Outs (F := F) := outsOf m (o2 m) (o4 m) (o6 m) (o8 m) (atLaunch m _) (atLaunch m _)

def o10 (c : Dev nD) : Buf (Elt F) ((c : Thread nD τ).loc main_v26) := (dat4 (rd (V9 m (O4 m))) c).arrAt 3 cfg4.N
abbrev O5 : Outs (F := F) := outsOf m (o2 m) (o4 m) (o6 m) (o8 m) (o10 m) (atLaunch m _)

def o11 (c : Dev nD) : Buf (Elt F) ((c : Thread nD τ).loc main_v27) := (dat5 (rd (V10 m (O5 m))) c).arrAt 2 cfg5.N

abbrev outs : Outs (F := F) := outsOf m (o2 m) (o4 m) (o6 m) (o8 m) (o10 m) (o11 m)

theorem V3_outs (c : Dev nD) : V3 m (outs m) c = V3 m (O1 m) c := by
  simp only [V3, V2, outsOf_16]
theorem V5_outs (c : Dev nD) : V5 m (outs m) c = V5 m (O2 m) c := by
  simp only [V5, V4, V3, V2, outsOf_16, outsOf_18]
theorem V7_outs (c : Dev nD) : V7 m (outs m) c = V7 m (O3 m) c := by
  simp only [V7, V6, V5, V4, V3, V2, outsOf_16, outsOf_18, outsOf_21]
theorem V9_outs (c : Dev nD) : V9 m (outs m) c = V9 m (O4 m) c := by
  simp only [V9, V8, V7, V6, V5, V4, V3, V2, outsOf_16, outsOf_18, outsOf_21, outsOf_23]
theorem V10_outs (c : Dev nD) : V10 m (outs m) c = V10 m (O5 m) c := by
  simp only [V10, V9, V8, V7, V6, V5, V4, V3, V2, outsOf_16, outsOf_18, outsOf_21, outsOf_23, outsOf_26]

def pdats : (p : Fin 6) → (c : Dev nD) → Dat τ (Elt F) Unit ℕ (UR sig nD τ) ℕ (Pipeline.pin (pcfgs (F := F)) adm p) c
  | ⟨0, _⟩ => fun c => dat0 (rd (V1 m)) c
  | ⟨1, _⟩ => fun c => dat1 (rd (V3 m (O1 m))) c
  | ⟨2, _⟩ => fun c => dat2 (rd (V5 m (O2 m))) c
  | ⟨3, _⟩ => fun c => dat3 (rd (V7 m (O3 m))) c
  | ⟨4, _⟩ => fun c => dat4 (rd (V9 m (O4 m))) c
  | ⟨5, _⟩ => fun c => dat5 (rd (V10 m (O5 m))) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem Vout0_self (c : Dev nD) : V2 m (outs m) c main_v16 = o2 m c := by simp only [V2, Function.update_self, outsOf_16]
theorem Vout1_self (c : Dev nD) : V4 m (outs m) c main_v18 = o4 m c := by simp only [V4, Function.update_self, outsOf_18]
theorem Vout2_self (c : Dev nD) : V6 m (outs m) c main_v21 = o6 m c := by simp only [V6, Function.update_self, outsOf_21]
theorem Vout3_self (c : Dev nD) : V8 m (outs m) c main_v23 = o8 m c := by simp only [V8, Function.update_self, outsOf_23]
theorem Vout4_self (c : Dev nD) : V10 m (outs m) c main_v26 = o10 m c := by simp only [V10, Function.update_self, outsOf_26]
abbrev Vout5 : Dev nD → Valuation τ sig (Elt F) := V11 m (outs m)
theorem Vout5_self (c : Dev nD) : V11 m (outs m) c main_v27 = o11 m c := by simp only [V11, Function.update_self, outsOf_27]

theorem owed_zero (p : Fin 6) (c : Dev nD) : ∀ t, (pdats m p c).owed t = 0 := by fin_cases p <;> exact fun _ => rfl

theorem owes_in (p : Fin 6) (c : Dev nD) :
    (iprop(∃ W, owes (c : Thread nD τ) (0 : CellTallies nD τ sig Unit) W) : sProp 𝕄) ⊢ (pdats m p c).owesAt () 0 := by
  fin_cases p <;>
  · unfold Pipeline.Dat.owesAt Pipeline.owesWithin
    iintro ⟨%W, HO⟩; iexists W; isplitr; · ipureintro; exact fun _ _ => Or.inl trivial
    iexact HO

theorem owes_out (p : Fin 6) (c : Dev nD) :
    (pdats m p c).owesAt () (Fin.last _) ⊢ (iprop(∃ W, owes (c : Thread nD τ) (0 : CellTallies nD τ sig Unit) W) : sProp 𝕄) := by
  fin_cases p <;>
  · unfold Pipeline.Dat.owesAt Pipeline.owesWithin
    iintro ⟨%W, -, HO⟩; iexists W; iexact HO

theorem pref_emp (p : Fin 6) (c : Dev nD) :
    (BI.emp : sProp 𝕄) ⊢ Pipeline.prefHeld (pcfgs (F := F) p).pre c (fun _ => fullShare) (adm p).1 := by
  fin_cases p <;>
  · unfold Pipeline.prefHeld; rw [show (Finset.univ : Finset (Fin 0)) = ∅ from rfl, BI.bigSep_empty]

set_option backward.isDefEq.respectTransparency.types false in
def segOf (p : Fin 6) (Vin Vout : Dev nD → Valuation τ sig (Elt F))
    (win : Pipeline.WinFacts₀ (pcfgs (F := F) p).spec)
    (block_pos : ∀ w : Fin (Pipeline.pin (pcfgs (F := F)) adm p).W, 0 < ((Pipeline.pin (pcfgs (F := F)) adm p).spec w).block.numel)
    (stage_whole : ∀ (w : Fin (Pipeline.pin (pcfgs (F := F)) adm p).W) (s : Fin ((Pipeline.pin (pcfgs (F := F)) adm p).spec w).nbuf),
      (((Pipeline.pin (pcfgs (F := F)) adm p).spec w).stage s).IsWhole)
    (hbody : ∀ c, Pipeline.BodyObligationLoose (pdats m p c) defs₀ 𝒱₀ () Set.univ)
    (hsplit : ∀ c, (unscopedBufs (Ix := Unit) (Name := ℕ) (U := UR sig nD τ) (Lvl := ℕ) c (rd Vin c) : sProp 𝕄)
      ⊢ iprop((pdats m p c).arrays ((pdats m p c).arrAt · 0)
        ∗ Pipeline.unscopedRest (Ix := Unit) (Name := ℕ) (U := UR sig nD τ) (Lvl := ℕ) (Pipeline.pin (pcfgs (F := F)) adm p).spec c (rd Vin c)))
    (hjoin : ∀ c, iprop((pdats m p c).arrays ((pdats m p c).arrAt · (Pipeline.pin (pcfgs (F := F)) adm p).N)
        ∗ Pipeline.unscopedRest (Ix := Unit) (Name := ℕ) (U := UR sig nD τ) (Lvl := ℕ) (Pipeline.pin (pcfgs (F := F)) adm p).spec c (rd Vin c))
      ⊢ (unscopedBufs (Ix := Unit) (Name := ℕ) (U := UR sig nD τ) (Lvl := ℕ) c (rd Vout c) : sProp 𝕄))
    (hin : ∀ c, (Pipeline.ΦA (Pipeline.pin (pcfgs (F := F)) adm p).spec c : sProp 𝕄) ⊢ (pdats m p c).Φ 0)
    (hout : ∀ c, (pdats m p c).Φ (Fin.last (Pipeline.pin (pcfgs (F := F)) adm p).N) ⊢ (Pipeline.ΦA (Pipeline.pin (pcfgs (F := F)) adm p).spec c : sProp 𝕄)) :
    RegionSeg (pcfgs (F := F)) adm (pdats m) () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p (owed_zero m p)
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (rd Vin c)
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    iframe
    isplitr; · iapply (pref_emp p c); iempintro
    iapply (owes_in m p c); iexact HO
  hin c := by
    iintro ⟨Hp, -, Hr⟩
    iapply (hin c); unfold Pipeline.ΦA
    iframe
  hout c := by
    rw [Pipeline.ownSems0_none]
    refine (hout c).trans ?_
    unfold Pipeline.ΦA
    iintro ⟨Hr, Hp⟩
    iframe; iempintro
  hexit c := by
    have hj := hjoin c
    rw [Pipeline.unscopedBufs_held] at hj
    iintro ⟨Ha, HO, HY, Hrest⟩
    imodintro
    isplitl [Ha Hrest]
    · iapply hj; iframe
    isplitl [HY]; · iexact HY
    iapply (owes_out m p c); iexact HO

end Cert.KernelIdeal.Run

end
-- ==== Proof.KI.Seg0.lean ====
import proofs.«419268_j46583215292539_1_alg».proof.Proof.KI.RunBase

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.KernelIdeal.Hub
open Cert.KernelIdeal.Reg0 Cert.KernelIdeal.Reg1 Cert.KernelIdeal.Reg2 Cert.KernelIdeal.Reg3 Cert.KernelIdeal.Reg4 Cert.KernelIdeal.Reg5

variable {F : FTy → Type} [FloatOps F]

local notation "𝕄" => MT nD τ sig Unit (Elt F) ℕ (UR sig nD τ) ℕ

variable (m : (ℓ : Loc nD τ sig) → Buf (Elt F) ℓ)

theorem hA0 (c : Dev nD) (w : Fin cfg0.W) : (pdats m 0 c).A w = rd (V1 m) c (Pipeline.arrRef spec0 w) :=
  rfl

theorem hF0 (c : Dev nD) (w : Fin cfg0.W) : (pdats m 0 c).arrAt w cfg0.N = rd (V2 m (outs m)) c (Pipeline.arrRef spec0 w) :=
  match w with
  | ⟨0, _⟩ | ⟨1, _⟩ => ((pdats m 0 c).arrAt_in _ rfl _).trans ((hA0 m c _).trans (V2_of m (outs m) c _ (by decide +revert)).symm)
  | ⟨2, _⟩ => (Vout0_self m c).symm

theorem hrest0 (c : Dev nD) : ∀ b, b ∉ Finset.univ.image (Pipeline.arrRef spec0) → rd (V2 m (outs m)) c b = rd (V1 m) c b :=
  fun b hb => V2_of m (outs m) c b fun h => hb (by
    rw [List.mem_singleton.mp h]; exact Finset.mem_image.mpr ⟨2, Finset.mem_univ _, rfl⟩)

set_option backward.isDefEq.respectTransparency.types false in
def reg0 : RegionSeg (pcfgs (F := F)) adm (pdats m) () defs₀ 𝒱₀ L lv 0 :=
  segOf m 0 (V1 m) (V2 m (outs m)) launch0.win.to₀ launch0.block_pos launch0.stage_whole
    (fun c => (body_obligation0 (rd (V1 m)) c).loose)
    (fun c => Pipeline.arrays_of_unscopedBufs (p := 0) (pcfgs (F := F)) adm (pdats m) launch0.win launch0.arr_whole c
      ((pdats m 0 c).share_full fun _ => rfl) (rd (V1 m) c) (hA0 m c))
    (fun c => Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (V1 m) c) (rd (V2 m (outs m)) c) ((pdats m 0 c).arrAt · cfg0.N) (hF0 m c) (hrest0 m c))
    (fun _ => .rfl) (fun _ => .rfl)

end Cert.KernelIdeal.Run

end
-- ==== Proof.KI.Seg1.lean ====
import proofs.«419268_j46583215292539_1_alg».proof.Proof.KI.RunBase

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.KernelIdeal.Hub
open Cert.KernelIdeal.Reg0 Cert.KernelIdeal.Reg1 Cert.KernelIdeal.Reg2 Cert.KernelIdeal.Reg3 Cert.KernelIdeal.Reg4 Cert.KernelIdeal.Reg5

variable {F : FTy → Type} [FloatOps F]

local notation "𝕄" => MT nD τ sig Unit (Elt F) ℕ (UR sig nD τ) ℕ

variable (m : (ℓ : Loc nD τ sig) → Buf (Elt F) ℓ)

theorem hA1 (c : Dev nD) (w : Fin cfg1.W) : (pdats m 1 c).A w = rd (V3 m (outs m)) c (Pipeline.arrRef spec1 w) :=
  (congrFun (V3_outs m c) _).symm

theorem hF1 (c : Dev nD) (w : Fin cfg1.W) : (pdats m 1 c).arrAt w cfg1.N = rd (V4 m (outs m)) c (Pipeline.arrRef spec1 w) :=
  match w with
  | ⟨0, _⟩ | ⟨1, _⟩ | ⟨2, _⟩ => ((pdats m 1 c).arrAt_in _ rfl _).trans ((hA1 m c _).trans (V4_of m (outs m) c _ (by decide +revert)).symm)
  | ⟨3, _⟩ => (Vout1_self m c).symm

theorem hrest1 (c : Dev nD) : ∀ b, b ∉ Finset.univ.image (Pipeline.arrRef spec1) → rd (V4 m (outs m)) c b = rd (V3 m (outs m)) c b :=
  fun b hb => V4_of m (outs m) c b fun h => hb (by
    rw [List.mem_singleton.mp h]; exact Finset.mem_image.mpr ⟨3, Finset.mem_univ _, rfl⟩)

set_option backward.isDefEq.respectTransparency.types false in
def reg1 : RegionSeg (pcfgs (F := F)) adm (pdats m) () defs₀ 𝒱₀ L lv 1 :=
  segOf m 1 (V3 m (outs m)) (V4 m (outs m)) launch1.win.to₀ launch1.block_pos launch1.stage_whole
    (fun c => (body_obligation1 (rd (V3 m (O1 m))) c).loose)
    (fun c => Pipeline.arrays_of_unscopedBufs (p := 1) (pcfgs (F := F)) adm (pdats m) launch1.win launch1.arr_whole c
      ((pdats m 1 c).share_full fun _ => rfl) (rd (V3 m (outs m)) c) (hA1 m c))
    (fun c => Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (V3 m (outs m)) c) (rd (V4 m (outs m)) c) ((pdats m 1 c).arrAt · cfg1.N) (hF1 m c) (hrest1 m c))
    (fun _ => .rfl) (hout1 (rd (V3 m (O1 m))))

end Cert.KernelIdeal.Run

end
-- ==== Proof.KI.Seg2.lean ====
import proofs.«419268_j46583215292539_1_alg».proof.Proof.KI.RunBase

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.KernelIdeal.Hub
open Cert.KernelIdeal.Reg0 Cert.KernelIdeal.Reg1 Cert.KernelIdeal.Reg2 Cert.KernelIdeal.Reg3 Cert.KernelIdeal.Reg4 Cert.KernelIdeal.Reg5

variable {F : FTy → Type} [FloatOps F]

local notation "𝕄" => MT nD τ sig Unit (Elt F) ℕ (UR sig nD τ) ℕ

variable (m : (ℓ : Loc nD τ sig) → Buf (Elt F) ℓ)

theorem hA2 (c : Dev nD) (w : Fin cfg2.W) : (pdats m 2 c).A w = rd (V5 m (outs m)) c (Pipeline.arrRef spec2 w) :=
  (congrFun (V5_outs m c) _).symm

theorem hF2 (c : Dev nD) (w : Fin cfg2.W) : (pdats m 2 c).arrAt w cfg2.N = rd (V6 m (outs m)) c (Pipeline.arrRef spec2 w) :=
  match w with
  | ⟨0, _⟩ | ⟨1, _⟩ => ((pdats m 2 c).arrAt_in _ rfl _).trans ((hA2 m c _).trans (V6_of m (outs m) c _ (by decide +revert)).symm)
  | ⟨2, _⟩ => (Vout2_self m c).symm

theorem hrest2 (c : Dev nD) : ∀ b, b ∉ Finset.univ.image (Pipeline.arrRef spec2) → rd (V6 m (outs m)) c b = rd (V5 m (outs m)) c b :=
  fun b hb => V6_of m (outs m) c b fun h => hb (by
    rw [List.mem_singleton.mp h]; exact Finset.mem_image.mpr ⟨2, Finset.mem_univ _, rfl⟩)

set_option backward.isDefEq.respectTransparency.types false in
def reg2 : RegionSeg (pcfgs (F := F)) adm (pdats m) () defs₀ 𝒱₀ L lv 2 :=
  segOf m 2 (V5 m (outs m)) (V6 m (outs m)) launch2.win.to₀ launch2.block_pos launch2.stage_whole
    (fun c => (body_obligation2 (rd (V5 m (O2 m))) c).loose)
    (fun c => Pipeline.arrays_of_unscopedBufs (p := 2) (pcfgs (F := F)) adm (pdats m) launch2.win launch2.arr_whole c
      ((pdats m 2 c).share_full fun _ => rfl) (rd (V5 m (outs m)) c) (hA2 m c))
    (fun c => Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (V5 m (outs m)) c) (rd (V6 m (outs m)) c) ((pdats m 2 c).arrAt · cfg2.N) (hF2 m c) (hrest2 m c))
    (fun _ => .rfl) (fun _ => .rfl)

end Cert.KernelIdeal.Run

end
-- ==== Proof.KI.Seg3.lean ====
import proofs.«419268_j46583215292539_1_alg».proof.Proof.KI.RunBase

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.KernelIdeal.Hub
open Cert.KernelIdeal.Reg0 Cert.KernelIdeal.Reg1 Cert.KernelIdeal.Reg2 Cert.KernelIdeal.Reg3 Cert.KernelIdeal.Reg4 Cert.KernelIdeal.Reg5

variable {F : FTy → Type} [FloatOps F]

local notation "𝕄" => MT nD τ sig Unit (Elt F) ℕ (UR sig nD τ) ℕ

variable (m : (ℓ : Loc nD τ sig) → Buf (Elt F) ℓ)

theorem hA3 (c : Dev nD) (w : Fin cfg3.W) : (pdats m 3 c).A w = rd (V7 m (outs m)) c (Pipeline.arrRef spec3 w) :=
  (congrFun (V7_outs m c) _).symm

theorem hF3 (c : Dev nD) (w : Fin cfg3.W) : (pdats m 3 c).arrAt w cfg3.N = rd (V8 m (outs m)) c (Pipeline.arrRef spec3 w) :=
  match w with
  | ⟨0, _⟩ | ⟨1, _⟩ | ⟨2, _⟩ => ((pdats m 3 c).arrAt_in _ rfl _).trans ((hA3 m c _).trans (V8_of m (outs m) c _ (by decide +revert)).symm)
  | ⟨3, _⟩ => (Vout3_self m c).symm

theorem hrest3 (c : Dev nD) : ∀ b, b ∉ Finset.univ.image (Pipeline.arrRef spec3) → rd (V8 m (outs m)) c b = rd (V7 m (outs m)) c b :=
  fun b hb => V8_of m (outs m) c b fun h => hb (by
    rw [List.mem_singleton.mp h]; exact Finset.mem_image.mpr ⟨3, Finset.mem_univ _, rfl⟩)

set_option backward.isDefEq.respectTransparency.types false in
def reg3 : RegionSeg (pcfgs (F := F)) adm (pdats m) () defs₀ 𝒱₀ L lv 3 :=
  segOf m 3 (V7 m (outs m)) (V8 m (outs m)) launch3.win.to₀ launch3.block_pos launch3.stage_whole
    (fun c => (body_obligation3 (rd (V7 m (O3 m))) c).loose)
    (fun c => Pipeline.arrays_of_unscopedBufs (p := 3) (pcfgs (F := F)) adm (pdats m) launch3.win launch3.arr_whole c
      ((pdats m 3 c).share_full fun _ => rfl) (rd (V7 m (outs m)) c) (hA3 m c))
    (fun c => Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (V7 m (outs m)) c) (rd (V8 m (outs m)) c) ((pdats m 3 c).arrAt · cfg3.N) (hF3 m c) (hrest3 m c))
    (fun _ => .rfl) (hout3 (rd (V7 m (O3 m))))

end Cert.KernelIdeal.Run

end
-- ==== Proof.KI.Seg4.lean ====
import proofs.«419268_j46583215292539_1_alg».proof.Proof.KI.RunBase

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.KernelIdeal.Hub
open Cert.KernelIdeal.Reg0 Cert.KernelIdeal.Reg1 Cert.KernelIdeal.Reg2 Cert.KernelIdeal.Reg3 Cert.KernelIdeal.Reg4 Cert.KernelIdeal.Reg5

variable {F : FTy → Type} [FloatOps F]

local notation "𝕄" => MT nD τ sig Unit (Elt F) ℕ (UR sig nD τ) ℕ

variable (m : (ℓ : Loc nD τ sig) → Buf (Elt F) ℓ)

theorem hA4 (c : Dev nD) (w : Fin cfg4.W) : (pdats m 4 c).A w = rd (V9 m (outs m)) c (Pipeline.arrRef spec4 w) :=
  (congrFun (V9_outs m c) _).symm

theorem hF4 (c : Dev nD) (w : Fin cfg4.W) : (pdats m 4 c).arrAt w cfg4.N = rd (V10 m (outs m)) c (Pipeline.arrRef spec4 w) :=
  match w with
  | ⟨0, _⟩ | ⟨1, _⟩ | ⟨2, _⟩ => ((pdats m 4 c).arrAt_in _ rfl _).trans ((hA4 m c _).trans (V10_of m (outs m) c _ (by decide +revert)).symm)
  | ⟨3, _⟩ => (Vout4_self m c).symm

theorem hrest4 (c : Dev nD) : ∀ b, b ∉ Finset.univ.image (Pipeline.arrRef spec4) → rd (V10 m (outs m)) c b = rd (V9 m (outs m)) c b :=
  fun b hb => V10_of m (outs m) c b fun h => hb (by
    rw [List.mem_singleton.mp h]; exact Finset.mem_image.mpr ⟨3, Finset.mem_univ _, rfl⟩)

set_option backward.isDefEq.respectTransparency.types false in
def reg4 : RegionSeg (pcfgs (F := F)) adm (pdats m) () defs₀ 𝒱₀ L lv 4 :=
  segOf m 4 (V9 m (outs m)) (V10 m (outs m)) launch4.win.to₀ launch4.block_pos launch4.stage_whole
    (fun c => (body_obligation4 (rd (V9 m (O4 m))) c).loose)
    (fun c => Pipeline.arrays_of_unscopedBufs (p := 4) (pcfgs (F := F)) adm (pdats m) launch4.win launch4.arr_whole c
      ((pdats m 4 c).share_full fun _ => rfl) (rd (V9 m (outs m)) c) (hA4 m c))
    (fun c => Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (rd (V9 m (outs m)) c) (rd (V10 m (outs m)) c) ((pdats m 4 c).arrAt · cfg4.N) (hF4 m c) (hrest4 m c))
    (fun _ => .rfl) (fun _ => .rfl)

end Cert.KernelIdeal.Run

end
-- ==== Proof.KI.Seg5.lean ====
import proofs.«419268_j46583215292539_1_alg».proof.Proof.KI.RunBase

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.KernelIdeal.Hub
open Cert.KernelIdeal.Reg0 Cert.KernelIdeal.Reg1 Cert.KernelIdeal.Reg2 Cert.KernelIdeal.Reg3 Cert.KernelIdeal.Reg4 Cert.KernelIdeal.Reg5

variable {F : FTy → Type} [FloatOps F]

local notation "𝕄" => MT nD τ sig Unit (Elt F) ℕ (UR sig nD τ) ℕ

variable (m : (ℓ : Loc nD τ sig) → Buf (Elt F) ℓ)

theorem hA5 (c : Dev nD) (w : Fin cfg5.W) : (pdats m 5 c).A w = rd (V10 m (outs m)) c (Pipeline.arrRef spec5 w) :=
  (congrFun (V10_outs m c) _).symm

theorem hF5 (c : Dev nD) (w : Fin cfg5.W) : (pdats m 5 c).arrAt w cfg5.N = rd (V11 m (outs m)) c (Pipeline.arrRef spec5 w) :=
  match w with
  | ⟨0, _⟩ | ⟨1, _⟩ => ((pdats m 5 c).arrAt_in _ rfl _).trans ((hA5 m c _).trans (V11_of m (outs m) c _ (by decide +revert)).symm)
  | ⟨2, _⟩ => (Vout5_self m c).symm

theorem hrest5 (c : Dev nD) : ∀ b, b ∉ Finset.univ.image (Pipeline.arrRef spec5) → rd (V11 m (outs m)) c b = rd (V10 m (outs m)) c b :=
  fun b hb => V11_of m (outs m) c b fun h => hb (by
    rw [List.mem_singleton.mp h]; exact Finset.mem_image.mpr ⟨2, Finset.mem_univ _, rfl⟩)

set_option backward.isDefEq.respectTransparency.types false in
def reg5 : RegionSeg (pcfgs (F := F)) adm (pdats m) () defs₀ 𝒱₀ L lv 5 :=
  segOf m 5 (V10 m (outs m)) (V11 m (outs m)) winFacts₀5 block_pos5 stage_whole5
    (fun c => (body_obligation5 (rd (V10 m (O5 m))) c).loose)
    (fun c => arrays_of_unscopedBufs5 (rd (V10 m (O5 m))) c (rd (V10 m (outs m)) c) (hA5 m c))
    (fun c => unscopedBufs_of_arrays5 (rd (V10 m (O5 m))) c (rd (V10 m (outs m)) c) (rd (V11 m (outs m)) c)
      ((pdats m 5 c).arrAt · cfg5.N) (hF5 m c) (hrest5 m c))
    (fun _ => .rfl) (fun _ => .rfl)

end Cert.KernelIdeal.Run

end
-- ==== Proof.KI.Run.lean ====
import proofs.«419268_j46583215292539_1_alg».proof.Proof.KI.Seg0
import proofs.«419268_j46583215292539_1_alg».proof.Proof.KI.Seg1
import proofs.«419268_j46583215292539_1_alg».proof.Proof.KI.Seg2
import proofs.«419268_j46583215292539_1_alg».proof.Proof.KI.Seg3
import proofs.«419268_j46583215292539_1_alg».proof.Proof.KI.Seg4
import proofs.«419268_j46583215292539_1_alg».proof.Proof.KI.Seg5

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.KernelIdeal.Hub

variable {F : FTy → Type} [FloatOps F]

local notation "𝕄" => MT nD τ sig Unit (Elt F) ℕ (UR sig nD τ) ℕ

variable (m : (ℓ : Loc nD τ sig) → Buf (Elt F) ℓ)

theorem hlast (c : Dev nD) : (reg5 m).post c
    ⊢ (iprop((StableHlo.held (c : Thread nD τ) (Pipeline.ucRefs τ sig) (V11 m (outs m) c) ∗ ∃ r, prngReg c r)
        ∗ ∃ W, owes (c : Thread nD τ) (0 : CellTallies nD τ sig Unit) W) : sProp 𝕄) := by
  show iprop(StableHlo.held (c : Thread nD τ) (Pipeline.ucRefs τ sig) (Vout5 m c) ∗ R c) ⊢ _
  iintro ⟨Hh, Hp, HO⟩
  iframe

abbrev ends (c : Dev nD) (s : MemSt nD τ sig (Elt F)) : Prop :=
  s.mem ((c.tc : Thread nD τ).loc main_v27) = o11 m c
      ∧ s.mem ((c.tc : Thread nD τ).loc main_v26) = o10 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)

set_option backward.isDefEq.respectTransparency.types false in

theorem run_main (ρ : Dev nD → PrngReg) :
    θ_run defs (onTc (τ := τ) (main (F := F))) ⟨m, fun _ => 0, ρ⟩ (fun r => ∀ c : Dev nD, ends m c r.2) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m) (reg3 m) (reg4 m) (reg5 m))
    (fun c Q => by
      rewrite [main_chain c, Seg.run_eq_chain]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V11 m (outs m) c) ∗ ∃ r, prngReg c r))
    (hch := fun c => ⟨.rfl, .rfl, .rfl, .rfl, .rfl, .rfl, .rfl, .rfl, .rfl, .rfl, .rfl, hlast m c⟩)
    (hinit := ?_) (QY := ends m)
    (hfin := fun c s' => ?_) (hQ := fun _ h => h)
  · refine Pipeline.initEach L lv fun c => ?_
    rw [← Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨⟨Hh, -⟩, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro
      have hh := fun (r : Ref sig .tc) hr => h (Proc.devRef .tc r) (Finset.mem_filter.mpr ⟨StableHlo.devRef_mem_tcRefs r, hr⟩)
      exact ⟨(hh main_v27 (by decide)).trans (by
          simp only [V11, Function.update_self, outsOf_27]),
        (hh main_v26 (by decide)).trans (by
          rw [V11_of m (outs m) c main_v26 (by decide)]; simp only [V10, Function.update_self, outsOf_26]),
        (hh main_arg0 (by decide)).trans (V11_main_arg0 m (outs m) c),
        (hh main_arg1 (by decide)).trans (V11_main_arg1 m (outs m) c),
        (hh main_arg2 (by decide)).trans (V11_main_arg2 m (outs m) c),
        (hh main_arg3 (by decide)).trans (V11_main_arg3 m (outs m) c),
        (hh main_arg4 (by decide)).trans (V11_main_arg4 m (outs m) c),
        (hh main_arg5 (by decide)).trans (V11_main_arg5 m (outs m) c),
        (hh main_arg6 (by decide)).trans (V11_main_arg6 m (outs m) c),
        (hh main_arg7 (by decide)).trans (V11_main_arg7 m (outs m) c),
        (hh main_arg8 (by decide)).trans (V11_main_arg8 m (outs m) c),
        (hh main_arg9 (by decide)).trans (V11_main_arg9 m (outs m) c),
        (hh main_arg10 (by decide)).trans (V11_main_arg10 m (outs m) c)⟩
    · iexact HSI

end Cert.KernelIdeal.Run

end
-- ==== Proof.LibScatter2.lean ====
import Idealize.ShloMosaic.PureOps.Ideal.Laws
import Idealize.ShloMosaic.Lib.ValueIdx
import Idealize.ShloMosaic.Lib.Pipeline.Value
import proofs.«419268_j46583215292539_1_alg».proof.Proof.LibScatterRows

noncomputable section

open scoped BigOperators

namespace Cert.LibScatter2

open Idealize.ShloMosaic Idealize.ShloMosaic.ValueIdx

section Coordinates

variable {N M E : Nat}

abbrev pairDims (hwf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ :=
  { updateWindowDims := [], insertedWindowDims := [0, 1], scatterDimsToOperandDims := [0, 1], indexVectorDim := 1, wf := hwf }

theorem pairDims_start {w : Nat} (hwf) (j : (⟨1, ![E]⟩ : Shape).Idx) (idx : IVec ⟨2, ![E, 2]⟩ w) (a : Fin 2) :
    (pairDims (N := N) (M := M) hwf).start j idx a = (idx (ix2 (j 0) a)).toInt := by
  match a with
  | ⟨0, _⟩ =>
    exact congrArg (fun k => (idx k).toInt) (show (pairDims (N := N) (M := M) hwf).siIdx j ⟨0, Nat.zero_lt_two⟩ = ix2 (j 0) 0 from
      funext fun b => Fin.ext (by match b with | ⟨0, _⟩ => rfl | ⟨1, _⟩ => rfl))
  | ⟨1, _⟩ =>
    exact congrArg (fun k => (idx k).toInt) (show (pairDims (N := N) (M := M) hwf).siIdx j ⟨1, Nat.one_lt_two⟩ = ix2 (j 0) 1 from
      funext fun b => Fin.ext (by match b with | ⟨0, _⟩ => rfl | ⟨1, _⟩ => rfl))

end Coordinates

section PairScatter

variable {N M E : Nat}

theorem scatterAdd_pairDims_apply {w : Nat} (hwf) (x : FVec Ideal ⟨2, ![N, M]⟩ .f32) (idx : IVec ⟨2, ![E, 2]⟩ w)
    (upd : FVec Ideal ⟨1, ![E]⟩ .f32) (n : Fin N) (k : Fin M) :
    Host.scatterAdd (pairDims (N := N) (M := M) hwf) x idx upd (ix2 n k)
      = x (ix2 n k) + ∑ e : Fin E,
          if (idx (ix2 e 0)).toInt = (n.val : ℤ) ∧ (idx (ix2 e 1)).toInt = (k.val : ℤ) then upd (ix1 e) else 0 := by
  have key : ∀ e : Fin E, (pairDims (N := N) (M := M) hwf).resultIdx? (ix1 e) idx = some (ix2 n k) ↔
      ((idx (ix2 e 0)).toInt = (n.val : ℤ) ∧ (idx (ix2 e 1)).toInt = (k.val : ℤ)) := fun e =>
    LibScatterRows.resultIdx_iff (pairDims (N := N) (M := M) hwf) (ix1 e) idx _ _
      ((congrArg (· + _) (pairDims_start hwf _ idx 0)).trans (add_zero _))
      ((congrArg (· + _) (pairDims_start hwf _ idx 1)).trans (add_zero _)) n k
  have hback : ∀ j : (⟨1, ![E]⟩ : Shape).Idx, ix1 (j 0 : Fin E) = j := fun j => (eq_ix1 j).symm
  show x (ix2 n k) + ∑ j ∈ Finset.univ.filter
      (fun j => (pairDims (N := N) (M := M) hwf).resultIdx? j idx = some (ix2 n k)), upd j = _
  refine congrArg (fun t => x (ix2 n k) + t) ?_
  rw [← Finset.sum_filter]
  refine Finset.sum_nbij' (fun j => (j 0 : Fin E)) (fun e => ix1 e) ?_ ?_ ?_ ?_ ?_
  · intro j hj
    have hj' := (Finset.mem_filter.mp hj).2
    refine Finset.mem_filter.mpr ⟨Finset.mem_univ _, (key (j 0)).mp ?_⟩
    exact (congrArg (fun t => (pairDims (N := N) (M := M) hwf).resultIdx? t idx = some (ix2 n k)) (hback j)).mpr hj'
  · intro e he
    exact Finset.mem_filter.mpr ⟨Finset.mem_univ _, (key e).mpr (Finset.mem_filter.mp he).2⟩
  · intro j _
    exact hback j
  · intro e _
    rfl
  · intro j _
    exact congrArg upd (hback j).symm

theorem scatterAdd_pairs_apply {N M E w : Nat} (d : ScatterDims ⟨2, ![N, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1)
    (x : FVec Ideal ⟨2, ![N, M]⟩ .f32) (idx : IVec ⟨2, ![E, 2]⟩ w) (upd : FVec Ideal ⟨1, ![E]⟩ .f32)
    (n : Fin N) (k : Fin M) :
    Host.scatterAdd d x idx upd (ix2 n k)
      = x (ix2 n k) + ∑ e : Fin E,
          if (idx (ix2 e 0)).toInt = (n.val : ℤ) ∧ (idx (ix2 e 1)).toInt = (k.val : ℤ) then upd (ix1 e) else 0 := by
  cases d with
  | mk uw iw sd iv wf =>
    dsimp only at h1 h2 h3 h4
    subst h1 h2 h3 h4
    exact scatterAdd_pairDims_apply wf x idx upd n k

end PairScatter

end Cert.LibScatter2

end
-- ==== Proof.KHost.lean ====
import proofs.«419268_j46583215292539_1_alg».proof.Proof.Gen.KernelIdeal.Regions
import proofs.«419268_j46583215292539_1_alg».proof.Proof.Spec
import proofs.«419268_j46583215292539_1_alg».proof.Proof.LibScatter2
import Idealize.ShloMosaic.PureOps.Ideal.Laws
import Idealize.ShloMosaic.Lib.StableHlo.Run
import Idealize.ShloMosaic.Lib.ValueIdx
import Idealize.ShloMosaic.Lib.Pipeline.Value
import Idealize.ShloMosaic.Lib.ValueLayout

noncomputable section

open scoped BigOperators

namespace Cert.KHost

open Idealize.ShloMosaic Idealize.ShloMosaic.TcCoe Idealize.ShloMosaic.ValueIdx
open Cert.KernelIdeal Cert.KernelIdeal.Gen Cert.Spec

section Layout

variable {α : Type}

theorem addUnit_eq {a : Nat} (x : (⟨1, ![a]⟩ : Shape).Idx → α) (h : (⟨1, ![a]⟩ : Shape).ShapeCasts ⟨2, ![1, a]⟩) :
    shapeCast ⟨2, ![1, a]⟩ x h = fun i => x (ix1 (i 1 : Fin a)) := by
  funext i
  obtain ⟨u, q, rfl⟩ : ∃ (u : Fin 1) (q : Fin a), i = ix2 u q := ⟨i 0, i 1, eq_ix2 i⟩
  exact shapeCast_a_1a_apply x h u q

theorem concat_cols_eq {n : Nat} (A B : Mat n 64)
    (h : Shape.Concatenates [(⟨2, ![n, 64]⟩ : Shape), ⟨2, ![n, 64]⟩] ⟨2, ![n, 128]⟩ 1) :
    concatenate ⟨2, ![n, 128]⟩ 1 [⟨⟨2, ![n, 64]⟩, A⟩, ⟨⟨2, ![n, 64]⟩, B⟩] h = hcat64 A B := by
  funext i
  obtain ⟨p, q, rfl⟩ : ∃ (p : Fin n) (q : Fin 128), i = ix2 p q := ⟨i 0, i 1, eq_ix2 i⟩
  unfold hcat64
  split
  next hq =>
    exact concatenate_pair_apply_left 1 A B h (ix2 p q) rfl _
      (fun b => by match b with | ⟨0, _⟩ => rfl | ⟨1, _⟩ => rfl)
  next hq =>
    have hq' : ¬ q.val < 64 := hq
    exact concatenate_pair_apply_right 1 A B h (ix2 p q) rfl rfl _
      (fun b hb => by match b with | ⟨0, _⟩ => rfl | ⟨1, _⟩ => exact absurd rfl hb)
      (by show q.val - 64 + 64 = q.val; omega)

theorem concat_vec_eq (a b : Vc 64)
    (h : Shape.Concatenates [(⟨1, ![64]⟩ : Shape), ⟨1, ![64]⟩] ⟨1, ![128]⟩ 0) :
    concatenate ⟨1, ![128]⟩ 0 [⟨⟨1, ![64]⟩, a⟩, ⟨⟨1, ![64]⟩, b⟩] h = vcat64 a b := by
  funext i
  obtain ⟨q, rfl⟩ : ∃ q : Fin 128, i = ix1 q := ⟨i 0, eq_ix1 i⟩
  unfold vcat64
  split
  next hq =>
    exact concatenate_pair_apply_left 0 a b h (ix1 q) rfl _
      (fun b => by match b with | ⟨0, _⟩ => rfl)
  next hq =>
    have hq' : ¬ q.val < 64 := hq
    exact concatenate_pair_apply_right 0 a b h (ix1 q) rfl rfl _
      (fun b hb => by match b with | ⟨0, _⟩ => exact absurd rfl hb)
      (by show q.val - 64 + 64 = q.val; omega)

theorem slice_left_eq {n : Nat} (X : Mat n 128) (h : (⟨2, ![n, 128]⟩ : Shape).Slices ![0, 0] ⟨2, ![n, 64]⟩) :
    extractStridedSlice ⟨2, ![n, 64]⟩ ![0, 0] X h = colsL64 X := by
  funext i
  obtain ⟨p, q, rfl⟩ : ∃ (p : Fin n) (q : Fin 64), i = ix2 p q := ⟨i 0, i 1, eq_ix2 i⟩
  exact slice2_axis1_apply 0 X h p q _ (Nat.zero_add _).symm

theorem slice_right_eq {n : Nat} (X : Mat n 128) (h : (⟨2, ![n, 128]⟩ : Shape).Slices ![0, 64] ⟨2, ![n, 64]⟩) :
    extractStridedSlice ⟨2, ![n, 64]⟩ ![0, 64] X h = colsR64 X := by
  funext i
  obtain ⟨p, q, rfl⟩ : ∃ (p : Fin n) (q : Fin 64), i = ix2 p q := ⟨i 0, i 1, eq_ix2 i⟩
  exact slice2_axis1_apply 64 X h p q _ rfl

end Layout

section Adjacency

theorem wrap_word (x : BitVec 32) (h : 0 ≤ x.toInt) :
    Scalar.select (IntOp.cmpi .slt x 0#32) (IntOp.addi x 8192#32) x = x := by
  have hs : x.slt 0#32 = false := by
    rw [BitVec.slt]
    simpa using h
  show (if BitVec.ofBool (x.slt 0#32) = 1 then _ else _) = _
  rw [hs]
  rfl

theorem wrap_eq (w : Ixs 262144) (hw : InRange w) (hbi : S_.BroadcastsInDim S262144 (![] : Fin 0 → Fin S262144.rank)) :
    select (cmpi .slt w (broadcastInDim S262144 ![] hbi (constantI S_ 32 0#32)))
      (addi w (broadcastInDim S262144 ![] hbi (constantI S_ 32 8192#32))) w = w := by
  funext i
  obtain ⟨e, rfl⟩ : ∃ e : Fin 262144, i = ix1 e := ⟨i 0, eq_ix1 i⟩
  exact wrap_word (w (ix1 e)) (hw e).1

theorem pair_cols (row col : Ixs 262144)
    (hb1 : S262144.BroadcastsInDim S262144x1 (![0] : Fin 1 → Fin S262144x1.rank))
    (hcat : Shape.Concatenates [S262144x1, S262144x1] S262144x2 1) (e : Fin 262144) :
    concatenate S262144x2 1 [⟨S262144x1, broadcastInDim S262144x1 ![0] hb1 row⟩,
        ⟨S262144x1, broadcastInDim S262144x1 ![0] hb1 col⟩] hcat (ix2 e (0 : Fin 2)) = row (ix1 e)
      ∧ concatenate S262144x2 1 [⟨S262144x1, broadcastInDim S262144x1 ![0] hb1 row⟩,
        ⟨S262144x1, broadcastInDim S262144x1 ![0] hb1 col⟩] hcat (ix2 e (1 : Fin 2)) = col (ix1 e) :=
  ⟨(concatenate_pair_apply_left 1 _ _ hcat (ix2 e (0 : Fin 2)) rfl (ix2 e (0 : Fin 1))
      (fun b => by match b with | ⟨0, _⟩ => rfl | ⟨1, _⟩ => rfl)).trans
      (broadcastInDim_apply _ hb1 row _ (ix1 e) (fun a => by match a with | ⟨0, _⟩ => rfl)),
    (concatenate_pair_apply_right 1 _ _ hcat (ix2 e (1 : Fin 2)) rfl rfl (ix2 e (0 : Fin 1))
      (fun b hb => by match b with | ⟨0, _⟩ => rfl | ⟨1, _⟩ => exact absurd rfl hb) rfl).trans
      (broadcastInDim_apply _ hb1 col _ (ix1 e) (fun a => by match a with | ⟨0, _⟩ => rfl))⟩

theorem scatter_eq_adj (row col : Ixs 262144) (val : Vc 262144)
    (hb0 : S_.BroadcastsInDim S8192x8192 (![] : Fin 0 → Fin S8192x8192.rank))
    (hb1 : S262144.BroadcastsInDim S262144x1 (![0] : Fin 1 → Fin S262144x1.rank))
    (hcat : Shape.Concatenates [S262144x1, S262144x1] S262144x2 1)
    (d : ScatterDims S8192x8192 S262144x2 S262144)
    (h1 : d.updateWindowDims = []) (h2 : d.insertedWindowDims = [0, 1]) (h3 : d.scatterDimsToOperandDims = [0, 1])
    (h4 : d.indexVectorDim = 1) :
    Host.scatterAdd (F := Ideal) (φ := .f32) d (broadcastInDim S8192x8192 ![] hb0 (constant (F := Ideal) S_ .f32 0x00000000#32))
      (concatenate S262144x2 1 [⟨S262144x1, broadcastInDim S262144x1 ![0] hb1 row⟩,
        ⟨S262144x1, broadcastInDim S262144x1 ![0] hb1 col⟩] hcat) val
      = adj row col val := by
  funext i
  obtain ⟨n, k, rfl⟩ : ∃ (n : Fin 8192) (k : Fin 8192), i = ix2 n k := ⟨i 0, i 1, eq_ix2 i⟩
  refine (Cert.LibScatter2.scatterAdd_pairs_apply d h1 h2 h3 h4 _ _ val n k).trans ?_
  have hz : broadcastInDim S8192x8192 ![] hb0 (constant (F := Ideal) S_ .f32 0x00000000#32) (ix2 n k) = 0 :=
    Ideal.ofBits_zero_f32
  rw [hz, zero_add]
  unfold adj
  refine Finset.sum_congr rfl fun e _ => ?_
  rw [(pair_cols row col hb1 hcat e).1, (pair_cols row col hb1 hcat e).2]

end Adjacency

section Found

variable (m : (ℓ : Loc nD τ sig) → Buf (Elt Ideal) ℓ) (outs : Outs (F := Ideal)) (c : Dev nD)

theorem found0 :
    V1 m c main_arg3 = m ((c : Thread nD τ).loc main_arg3) ∧ V1 m c main_arg4 = m ((c : Thread nD τ).loc main_arg4) :=
  ⟨(V1_of m c main_arg3 (by decide)).trans rfl, (V1_of m c main_arg4 (by decide)).trans rfl⟩

theorem found1_v16 : V3 m outs c main_v16 = outs 2 main_v16 c :=
  (V3_of m outs c main_v16 (by decide)).trans (Function.update_self ..)

theorem found1_v17 :
    (V3 m outs c main_v17 : S1x256.Idx → EReal)
      = fun i => (m ((c : Thread nD τ).loc main_arg5) : S256.Idx → EReal) (ix1 (i 1 : Fin 256)) := by
  have h5 : V2 m outs c main_arg5 = m ((c : Thread nD τ).loc main_arg5) :=
    (V2_of m outs c main_arg5 (by decide)).trans ((V1_of m c main_arg5 (by decide)).trans rfl)
  show StableHlo.after hostOps1 _ (Proc.devRef .tc main_v17) = _
  after_results
  rw [h5]
  exact addUnit_eq (a := 256) _ _

set_option maxHeartbeats 1600000 in

theorem found1_v15 (hrow : InRange (m ((c : Thread nD τ).loc main_arg0))) (hcol : InRange (m ((c : Thread nD τ).loc main_arg1))) :
    (V3 m outs c main_v15 : S8192x8192.Idx → EReal)
      = adj (m ((c : Thread nD τ).loc main_arg0)) (m ((c : Thread nD τ).loc main_arg1)) (m ((c : Thread nD τ).loc main_arg2)) := by
  refine ((V3_of m outs c main_v15 (by decide)).trans (V2_of m outs c main_v15 (by decide))).trans ?_
  show StableHlo.after hostOps0 _ (Proc.devRef .tc main_v15) = _
  after_results
  rw [wrap_eq _ hrow, wrap_eq _ hcol]
  exact scatter_eq_adj _ _ _ _ _ _ _ rfl rfl rfl rfl

theorem found3_v15 (hrow : InRange (m ((c : Thread nD τ).loc main_arg0))) (hcol : InRange (m ((c : Thread nD τ).loc main_arg1))) :
    (V7 m outs c main_v15 : S8192x8192.Idx → EReal)
      = adj (m ((c : Thread nD τ).loc main_arg0)) (m ((c : Thread nD τ).loc main_arg1)) (m ((c : Thread nD τ).loc main_arg2)) :=
  ((V7_of m outs c main_v15 (by decide)).trans ((V6_of m outs c main_v15 (by decide)).trans
    ((V5_of m outs c main_v15 (by decide)).trans (V4_of m outs c main_v15 (by decide))))).trans (found1_v15 m outs c hrow hcol)

theorem found2_v18 : V5 m outs c main_v18 = outs 4 main_v18 c :=
  (V5_of m outs c main_v18 (by decide)).trans (Function.update_self ..)

theorem V4_arg (r : Ref sig .tc) (h0 : r ∉ hostOps0_W) (h1 : r ∉ ([main_v16] : List (Ref sig .tc))) (h2 : r ∉ hostOps1_W)
    (h3 : r ∉ ([main_v18] : List (Ref sig .tc))) : V4 m outs c r = m ((c : Thread nD τ).loc r) :=
  (V4_of m outs c r h3).trans ((V3_of m outs c r h2).trans ((V2_of m outs c r h1).trans ((V1_of m c r h0).trans rfl)))

theorem found2_v19 :
    (V5 m outs c main_v19 : S256x128.Idx → EReal)
      = hcat64 (m ((c : Thread nD τ).loc main_arg6)) (m ((c : Thread nD τ).loc main_arg8)) := by
  have h6 := V4_arg m outs c main_arg6 (by decide) (by decide) (by decide) (by decide)
  have h8 := V4_arg m outs c main_arg8 (by decide) (by decide) (by decide) (by decide)
  show StableHlo.after hostOps2 _ (Proc.devRef .tc main_v19) = _
  after_results
  rw [h6, h8]
  exact concat_cols_eq (n := 256) _ _ _

theorem V5_v20 :
    (V5 m outs c main_v20 : S128.Idx → EReal)
      = vcat64 (m ((c : Thread nD τ).loc main_arg7)) (m ((c : Thread nD τ).loc main_arg9)) := by
  have h7 := V4_arg m outs c main_arg7 (by decide) (by decide) (by decide) (by decide)
  have h9 := V4_arg m outs c main_arg9 (by decide) (by decide) (by decide) (by decide)
  show StableHlo.after hostOps2 _ (Proc.devRef .tc main_v20) = _
  after_results
  rw [h7, h9]
  exact concat_vec_eq _ _ _

theorem found3_v21 : V7 m outs c main_v21 = outs 6 main_v21 c :=
  (V7_of m outs c main_v21 (by decide)).trans (Function.update_self ..)

theorem found3_v22 :
    (V7 m outs c main_v22 : S1x128.Idx → EReal)
      = fun i => vcat64 (m ((c : Thread nD τ).loc main_arg7)) (m ((c : Thread nD τ).loc main_arg9)) (ix1 (i 1 : Fin 128)) := by
  have h20 : (V6 m outs c main_v20 : S128.Idx → EReal)
      = vcat64 (m ((c : Thread nD τ).loc main_arg7)) (m ((c : Thread nD τ).loc main_arg9)) :=
    (V6_of m outs c main_v20 (by decide)).trans (V5_v20 m outs c)
  show StableHlo.after hostOps3 _ (Proc.devRef .tc main_v22) = _
  after_results
  rw [h20]
  exact addUnit_eq (a := 128) _ _

theorem V8_v23 : V8 m outs c main_v23 = outs 8 main_v23 c := Function.update_self ..

theorem found4 :
    (V9 m outs c main_v24 : S8192x64.Idx → EReal) = colsL64 (outs 8 main_v23 c) ∧
    (V9 m outs c main_v25 : S8192x64.Idx → EReal) = colsR64 (outs 8 main_v23 c) ∧
    V9 m outs c main_arg10 = m ((c : Thread nD τ).loc main_arg10) := by
  have h23 := V8_v23 m outs c
  refine ⟨?_, ?_, ?_⟩
  · show StableHlo.after hostOps4 _ (Proc.devRef .tc main_v24) = _
    after_results
    rw [h23]
    exact slice_left_eq (n := 8192) _ _
  · show StableHlo.after hostOps4 _ (Proc.devRef .tc main_v25) = _
    after_results
    rw [h23]
    exact slice_right_eq (n := 8192) _ _
  · exact (V9_of m outs c main_arg10 (by decide)).trans ((V8_of m outs c main_arg10 (by decide)).trans
      ((V7_of m outs c main_arg10 (by decide)).trans ((V6_of m outs c main_arg10 (by decide)).trans
      ((V5_of m outs c main_arg10 (by decide)).trans (V4_arg m outs c main_arg10 (by decide) (by decide) (by decide) (by decide))))))

theorem found5 : V10 m outs c main_v26 = outs 10 main_v26 c := Function.update_self ..

end Found

end Cert.KHost

end
-- ==== Proof.KI.ValLib.lean ====
import Idealize.ShloMosaic.Lib.KernelVsHost
import Idealize.ShloMosaic.Lib.StackMember
import Idealize.ShloMosaic.Lib.ValueIdx
import Mathlib.Algebra.BigOperators.Fin

noncomputable section

open scoped BigOperators

namespace Cert.KernelIdeal.ValLib

open Idealize.ShloMosaic Idealize.ShloMosaic.ValueIdx

theorem hz : (![0, 0] : Fin 2 → Nat) = fun _ => 0 := funext fun a => by fin_cases a <;> rfl

/-- Into a zero accumulator, entry (r, q) of the product is the sum over j of A (r, j) times B (j, q). -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) :=
  (congrFun (matmul_zero_eq_dotGeneral _ prec A B) _).trans (StackMember.dotGeneral_plain_apply prec A B r q)

/-- A sum of products over 8192 = 4 * 2048 positions is the sum of its four runs of 2048. -/
theorem run4 (A S : Fin 8192 → EReal) (a s : Fin 4 → Fin 2048 → EReal)
    (ha : ∀ k u, a k u = A ⟨2048 * k.val + u.val, by have := k.isLt; have := u.isLt; omega⟩)
    (hs : ∀ k u, s k u = S ⟨2048 * k.val + u.val, by have := k.isLt; have := u.isLt; omega⟩) :
    (((0 + ∑ u, a 0 u * s 0 u) + ∑ u, a 1 u * s 1 u) + ∑ u, a 2 u * s 2 u) + ∑ u, a 3 u * s 3 u = ∑ x, A x * S x := by
  rw [← (finProdFinEquiv (m := 4) (n := 2048)).sum_comp fun x => A x * S x, Fintype.sum_prod_type, Fin.sum_univ_four, zero_add]
  simp only [ha, hs]
  refine congrArg₂ (· + ·) (congrArg₂ (· + ·) (congrArg₂ (· + ·) ?_ ?_) ?_) ?_ <;>
    exact Finset.sum_congr rfl fun u _ => congrArg (fun x => A x * S x) (Fin.ext (Nat.add_comm _ _))

end Cert.KernelIdeal.ValLib

end
-- ==== Proof.KI.Val0.lean ====
import proofs.«419268_j46583215292539_1_alg».proof.Proof.KI.Hub
import proofs.«419268_j46583215292539_1_alg».proof.Proof.KI.ValLib
import proofs.«419268_j46583215292539_1_alg».proof.Proof.Spec
import Idealize.ShloMosaic.Lib.Pipeline.Value

noncomputable section

open scoped BigOperators

namespace Cert.KernelIdeal.Val0

open Idealize.ShloMosaic Idealize.ShloMosaic.TcCoe Idealize.ShloMosaic.ValueIdx
open Idealize.SL Idealize.SL.Sem
open Cert.KernelIdeal Cert.KernelIdeal.Gen Cert.KernelIdeal.ValLib

theorem pay_apply (x : Vec Ideal S1024x512 .f32) (w : Vec Ideal S512x256 .f32) (p : Fin 1024) (q : Fin 256) :
    k0_pay1 (F := Ideal) x w (ix2 p q) = ∑ j : Fin 512, x (ix2 p j) * w (ix2 j q) := by
  unfold k0_pay1
  exact matmul_plain_apply 1024 512 256 none _ _ p q

variable (V : (c : Dev nD) → (b : Ref sig .tc) → Buf (Elt Ideal) ((c : Thread nD τ).loc b))

theorem idx_facts : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = t.val ∧ win0_2.index t (1 : Fin 2) = 0 :=
  (by decide +kernel : ∀ t : Fin grid0.N, _)

/-- Entry (p, q) of the block stored at point t is entry (1024 t + p, q) of the product of the two arrays. -/
theorem flushed_eq (c : Dev nD) (dat : Pipeline.Dat τ (Elt Ideal) Unit ℕ (UR sig nD τ) ℕ cfg0 c)
    (hafter : ∀ t, dat.after 2 t = Hub.out0 (Hub.iblk0 V c 0 t) (Hub.iblk0 V c 1 t)) (t : Fin cfg0.N) :
    dat.flushed 2 t = ((cfg0.win 2).blk t).view.read (Elt Ideal)
      (Cert.Spec.mm (n := 8192) (k := 512) (p := 256) (V c (Pipeline.arrRef spec0 0)) (V c (Pipeline.arrRef spec0 1))) := by
  obtain ⟨e0, e1, e2, e3, e4, e5⟩ := idx_facts t
  show (cfg0.win 2).cut (grid0.coords t) (dat.after 2 t) = _
  rw [hafter]
  unfold Hub.out0
  rw [View.canon_unit_zero hz]
  simp only [View.ld_unit_zero (S := S1024x512) hz, View.ld_unit_zero (S := S512x256) hz]
  funext j
  obtain ⟨p, q, rfl⟩ : ∃ (p : Fin 1024) (q : Fin 256), j = ix2 p q := ⟨j 0, j 1, eq_ix2 j⟩
  refine (pay_apply _ _ p q).trans ?_
  rw [View.read_apply, show ∀ (X : Cert.Spec.Mat 8192 512) (W : Cert.Spec.Mat 512 256) (i : S8192x256.Idx),
    Cert.Spec.mm X W i = ∑ k : Fin 512, X (ix2 (i 0) k) * W (ix2 k (i 1)) from fun _ _ _ => rfl]
  refine Finset.sum_congr rfl fun k _ => congrArg₂ (fun a b : EReal => a * b) ?_ ?_ <;>
    unfold Hub.iblk0 <;> rw [View.read_apply]
  · refine congrArg (V c (Pipeline.arrRef spec0 0) : S8192x512.Idx → EReal) ((eq_ix2 _).trans (congrArg₂ ix2 (Fin.ext ?_) (Fin.ext ?_)))
    · show win0_0.index t (0 : Fin 2) * 1024 + 1 * p.val = win0_2.index t (0 : Fin 2) * 1024 + 1 * p.val; omega
    · show win0_0.index t (1 : Fin 2) * 512 + 1 * k.val = k.val; omega
  · refine congrArg (V c (Pipeline.arrRef spec0 1) : S512x256.Idx → EReal) ((eq_ix2 _).trans (congrArg₂ ix2 (Fin.ext ?_) (Fin.ext ?_)))
    · show win0_1.index t (0 : Fin 2) * 512 + 1 * k.val = k.val; omega
    · show win0_1.index t (1 : Fin 2) * 256 + 1 * q.val = win0_2.index t (1 : Fin 2) * 256 + 1 * q.val; omega

/-- Row r of the output lies in the block of point r / 1024. -/
theorem cover (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ : ∃ t : Fin cfg0.N, t.val = (i 0).val / 1024 := ⟨⟨(i 0).val / 1024, by rw [show cfg0.N = 8 from N_0]; omega⟩, rfl⟩
  obtain ⟨-, -, -, -, e4, e5⟩ := idx_facts t
  refine ⟨t, flush0_2 t, ?_⟩
  show i ∈ ((View.whole main_v16).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 256 ≤ (i 1).val ∧ (i 1).val < win0_2.index t (1 : Fin 2) * 256 + 256
    omega

theorem final0 (c : Dev nD) (dat : Pipeline.Dat τ (Elt Ideal) Unit ℕ (UR sig nD τ) ℕ cfg0 c)
    (hA : ∀ w, dat.A w = V c (Pipeline.arrRef spec0 w))
    (hafter : ∀ t, dat.after 2 t = Hub.out0 (Hub.iblk0 V c 0 t) (Hub.iblk0 V c 1 t)) :
    (dat.arrAt 2 cfg0.N : S8192x256.Idx → EReal)
      = Cert.Spec.mm (V c (Pipeline.arrRef spec0 0)) (V c (Pipeline.arrRef spec0 1)) :=
  dat.arrAt_eq_of_cover 2 _ (fun t _ => flushed_eq V c dat hafter t) cover

end Cert.KernelIdeal.Val0

end
-- ==== Proof.KI.Val1.lean ====
import proofs.«419268_j46583215292539_1_alg».proof.Proof.KI.Hub
import proofs.«419268_j46583215292539_1_alg».proof.Proof.KI.ValLib
import proofs.«419268_j46583215292539_1_alg».proof.Proof.Spec
import Idealize.ShloMosaic.Lib.Pipeline.Value
import Idealize.ShloMosaic.Lib.ValueLayout

noncomputable section

open scoped BigOperators

namespace Cert.KernelIdeal.Val1

open Idealize.ShloMosaic Idealize.ShloMosaic.TcCoe Idealize.ShloMosaic.ValueIdx
open Idealize.SL Idealize.SL.Sem
open Cert.KernelIdeal Cert.KernelIdeal.Gen Cert.KernelIdeal.ValLib

theorem pay1_apply (i : S2048x256.Idx) : (k1_pay1 (F := Ideal) : S2048x256.Idx → EReal) i = 0 := by
  unfold k1_pay1
  simp only [shapeCast_self]
  exact Ideal.ofBits_zero_f32

theorem pay2_apply (a : Vec Ideal S2048x2048 .bf16) (s acc : Vec Ideal S2048x256 .f32) (r : Fin 2048) (q : Fin 256) :
    (k1_pay2 (F := Ideal) a s acc : S2048x256.Idx → EReal) (ix2 r q)
      = acc (ix2 r q) + ∑ u : Fin 2048, (a (ix2 r u) : EReal) * s (ix2 u q) := by
  unfold k1_pay2
  simp only [shapeCast_self, matmul]
  rw [addf_apply]
  exact congrArg (acc (ix2 r q) + ·) (matmul_plain_apply 2048 2048 256 none _ _ r q)

theorem pay3_apply (b : Vec Ideal S1x256 .f32) (acc : Vec Ideal S2048x256 .f32) (r : Fin 2048) (q : Fin 256) :
    (k1_pay3 (F := Ideal) b acc : S2048x256.Idx → EReal) (ix2 r q)
      = Ideal.tanh (acc (ix2 r q) + b (ix2 (0 : Fin 1) q)) := by
  unfold k1_pay3
  simp only [shapeCast_self]
  show Ideal.tanh (acc (ix2 r q) + broadcastTo S2048x256 b broadcasts_S1x256_S2048x256 (ix2 r q)) = _
  rw [broadcastTo_1b_ab_apply]

variable (V : (c : Dev nD) → (b : Ref sig .tc) → Buf (Elt Ideal) ((c : Thread nD τ).loc b))

theorem idx_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

/-- Point t is (t / 4, t % 4): its left block starts at row 2048 (t / 4) and column 2048 (t % 4) of the left array. -/
theorem blkA_apply (c : Dev nD) (t : Fin cfg1.N) (r u : Fin 2048) (j : S8192x8192.Idx)
    (h0 : (j 0).val = 2048 * (t.val / 4) + r.val) (h1 : (j 1).val = 2048 * (t.val % 4) + u.val) :
    (Hub.iblk1 V c 0 t : S2048x2048.Idx → EReal) (ix2 r u) = (V c (Pipeline.arrRef spec1 0) : S8192x8192.Idx → EReal) j := by
  obtain ⟨e0, e1, -⟩ := idx_facts t
  unfold Hub.iblk1
  rw [View.read_apply]
  refine congrArg (V c (Pipeline.arrRef spec1 0) : S8192x8192.Idx → EReal) (funext fun a => Fin.ext ?_)
  match a with
  | ⟨0, _⟩ => show win1_0.index t (0 : Fin 2) * 2048 + 1 * r.val = (j 0).val; omega
  | ⟨1, _⟩ => show win1_0.index t (1 : Fin 2) * 2048 + 1 * u.val = (j 1).val; omega

theorem blkS_apply (c : Dev nD) (t : Fin cfg1.N) (u : Fin 2048) (q : Fin 256) (j : S8192x256.Idx)
    (h0 : (j 0).val = 2048 * (t.val % 4) + u.val) (h1 : (j 1).val = q.val) :
    (Hub.iblk1 V c 1 t : S2048x256.Idx → EReal) (ix2 u q) = (V c (Pipeline.arrRef spec1 1) : S8192x256.Idx → EReal) j := by
  obtain ⟨-, -, e0, e1, -⟩ := idx_facts t
  unfold Hub.iblk1
  rw [View.read_apply]
  refine congrArg (V c (Pipeline.arrRef spec1 1) : S8192x256.Idx → EReal) (funext fun a => Fin.ext ?_)
  match a with
  | ⟨0, _⟩ => show win1_1.index t (0 : Fin 2) * 2048 + 1 * u.val = (j 0).val; omega
  | ⟨1, _⟩ => show win1_1.index t (1 : Fin 2) * 256 + 1 * q.val = (j 1).val; omega

theorem blkB_apply (c : Dev nD) (t : Fin cfg1.N) (q : Fin 256) :
    (Hub.iblk1 V c 2 t : S1x256.Idx → EReal) (ix2 (0 : Fin 1) q) = (V c (Pipeline.arrRef spec1 2) : S1x256.Idx → EReal) (ix2 (0 : Fin 1) q) := by
  obtain ⟨-, -, -, -, e0, e1, -⟩ := idx_facts t
  unfold Hub.iblk1
  rw [View.read_apply]
  refine congrArg (V c (Pipeline.arrRef spec1 2) : S1x256.Idx → EReal) (funext fun a => Fin.ext ?_)
  match a with
  | ⟨0, _⟩ => show win1_2.index t (0 : Fin 2) * 1 + 1 * 0 = 0; omega
  | ⟨1, _⟩ => show win1_2.index t (1 : Fin 2) * 256 + 1 * q.val = q.val; omega

theorem acc_reset (c : Dev nD) (n : ℕ) (h : n < cfg1.N) (hn : n % 4 = 0) :
    Hub.acc1 V c n h = k1_pay2 (Hub.iblk1 V c 0 ⟨n, h⟩) (Hub.iblk1 V c 1 ⟨n, h⟩) (k1_pay1 (F := Ideal)) := by
  cases n with
  | zero => rfl
  | succ n => unfold Hub.acc1; rw [if_pos hn]

theorem acc_step (c : Dev nD) (n : ℕ) (h : n + 1 < cfg1.N) (hn : (n + 1) % 4 ≠ 0) :
    Hub.acc1 V c (n + 1) h = k1_pay2 (Hub.iblk1 V c 0 ⟨n + 1, h⟩) (Hub.iblk1 V c 1 ⟨n + 1, h⟩) (Hub.acc1 V c n (Nat.lt_of_succ_lt h)) := by
  rw [Hub.acc1]; rw [if_neg hn]

abbrev P (c : Dev nD) : S8192x256.Idx → EReal :=
  Cert.Spec.mm (n := 8192) (k := 8192) (p := 256) (V c (Pipeline.arrRef spec1 0)) (V c (Pipeline.arrRef spec1 1))

abbrev G (c : Dev nD) : S8192x256.Idx → EReal :=
  Cert.Spec.act (P V c) (fun j => (V c (Pipeline.arrRef spec1 2) : S1x256.Idx → EReal) (ix2 (0 : Fin 1) (j 0)))

/-- The four steps of a run add the four runs of 2048 terms of row R of the product. -/
theorem acc_last (c : Dev nD) (n : ℕ) (h : n < cfg1.N) (hn : n % 4 = 3) (r : Fin 2048) (q : Fin 256) (R : Fin 8192)
    (hR : R.val = 2048 * (n / 4) + r.val) :
    (Hub.acc1 V c n h : S2048x256.Idx → EReal) (ix2 r q) = P V c (ix2 R q) := by
  have hN : cfg1.N = 16 := N_1
  obtain ⟨b, rfl⟩ : ∃ b, n = b + 3 := ⟨n - 3, by omega⟩
  have hk : ∀ k : Fin 4, b + k.val < cfg1.N := fun k => by have := k.isLt; omega
  rw [acc_step V c (b + 2) h (by omega), acc_step V c (b + 1) (by omega) (by omega),
    acc_step V c b (by omega) (by omega), acc_reset V c b (by omega) (by omega),
    pay2_apply, pay2_apply, pay2_apply, pay2_apply, pay1_apply]
  exact run4 (fun x => (V c (Pipeline.arrRef spec1 0) : S8192x8192.Idx → EReal) (ix2 R x)) (fun x => (V c (Pipeline.arrRef spec1 1) : S8192x256.Idx → EReal) (ix2 x q))
    (fun k u => (Hub.iblk1 V c 0 ⟨b + k.val, hk k⟩ : S2048x2048.Idx → EReal) (ix2 r u))
    (fun k u => (Hub.iblk1 V c 1 ⟨b + k.val, hk k⟩ : S2048x256.Idx → EReal) (ix2 u q))
    (fun k u => blkA_apply V c _ r u _ (by have := k.isLt; show R.val = 2048 * ((b + k.val) / 4) + r.val; omega)
      (by have := k.isLt; show 2048 * k.val + u.val = 2048 * ((b + k.val) % 4) + u.val; omega))
    (fun k u => blkS_apply V c _ u q _ (by have := k.isLt; show 2048 * k.val + u.val = 2048 * ((b + k.val) % 4) + u.val; omega) rfl)

theorem out_apply (c : Dev nD) (t : Fin cfg1.N) (ht : t.val % 4 = 3) (r : Fin 2048) (q : Fin 256) (j : S8192x256.Idx)
    (h0 : (j 0).val = 2048 * (t.val / 4) + r.val) (h1 : (j 1).val = q.val) :
    (Hub.out1 V c t : S2048x256.Idx → EReal) (ix2 r q) = G V c j := by
  obtain ⟨R, Q, rfl⟩ : ∃ (R : Fin 8192) (Q : Fin 256), j = ix2 R Q := ⟨j 0, j 1, eq_ix2 j⟩
  obtain rfl : Q = q := Fin.ext h1
  unfold Hub.out1
  rw [pay3_apply, blkB_apply, acc_last V c t.val t.isLt ht r Q R h0]
  rfl

theorem flushed_eq (c : Dev nD) (dat : Pipeline.Dat τ (Elt Ideal) Unit ℕ (UR sig nD τ) ℕ cfg1 c)
    (hafter : ∀ t : Fin cfg1.N, t.val % 4 = 3 → dat.after 3 t = Hub.out1 V c t)
    (t : Fin cfg1.N) (hf : (cfg1.win 3).flush t = true) :
    dat.flushed 3 t = ((cfg1.win 3).blk t).view.read (Elt Ideal) (G V c) := by
  have ht : t.val % 4 = 3 := (flush1_3 t).mp hf
  obtain ⟨-, -, -, -, -, -, e0, e1⟩ := idx_facts t
  show (cfg1.win 3).cut (grid1.coords t) (dat.after 3 t) = _
  rw [hafter t ht]
  funext y
  obtain ⟨r, q, rfl⟩ : ∃ (r : Fin 2048) (q : Fin 256), y = ix2 r q := ⟨y 0, y 1, eq_ix2 y⟩
  rw [View.read_apply]
  refine out_apply V c t ht r q _ ?_ ?_
  · show win1_3.index t (0 : Fin 2) * 2048 + 1 * r.val = _; omega
  · show win1_3.index t (1 : Fin 2) * 256 + 1 * q.val = _; omega

/-- Row R of the output lies in the block stored at point 4 (R / 2048) + 3. -/
theorem cover (i : S8192x256.Idx) :
    ∃ t : Fin cfg1.N, (cfg1.win 3).flush t = true ∧ i ∈ ((cfg1.win 3).blk t).view.set := by
  have hi0 : (i 0).val < 8192 := (i 0).isLt
  have hi1 : (i 1).val < 256 := (i 1).isLt
  obtain ⟨t, ht⟩ : ∃ t : Fin cfg1.N, t.val = 4 * ((i 0).val / 2048) + 3 :=
    ⟨⟨4 * ((i 0).val / 2048) + 3, by rw [show cfg1.N = 16 from N_1]; omega⟩, rfl⟩
  obtain ⟨-, -, -, -, -, -, e0, e1⟩ := idx_facts t
  refine ⟨t, (flush1_3 t).mpr (by omega), ?_⟩
  show i ∈ ((View.whole main_v18).slice (win1_3.rect t)).set
  rw [View.set_slice_whole, Rect.mem_set_unit]
  intro a
  match a with
  | ⟨0, _⟩ =>
    show win1_3.index t (0 : Fin 2) * 2048 ≤ (i 0).val ∧ (i 0).val < win1_3.index t (0 : Fin 2) * 2048 + 2048
    omega
  | ⟨1, _⟩ =>
    show win1_3.index t (1 : Fin 2) * 256 ≤ (i 1).val ∧ (i 1).val < win1_3.index t (1 : Fin 2) * 256 + 256
    omega

theorem final1 (c : Dev nD) (dat : Pipeline.Dat τ (Elt Ideal) Unit ℕ (UR sig nD τ) ℕ cfg1 c)
    (hA : ∀ w, dat.A w = V c (Pipeline.arrRef spec1 w))
    (hafter : ∀ t : Fin cfg1.N, t.val % 4 = 3 → dat.after 3 t = Hub.out1 V c t) :
    (dat.arrAt 3 cfg1.N : S8192x256.Idx → EReal)
      = Cert.Spec.act (Cert.Spec.mm (n := 8192) (k := 8192) (p := 256) (V c (Pipeline.arrRef spec1 0)) (V c (Pipeline.arrRef spec1 1)))
          (fun j => (V c (Pipeline.arrRef spec1 2) : S1x256.Idx → EReal) (ix2 (0 : Fin 1) (j 0))) :=
  dat.arrAt_eq_of_cover 3 (G V c) (fun t hf => flushed_eq V c dat hafter t hf) cover

end Cert.KernelIdeal.Val1

end
-- ==== Proof.KI.Val2.lean ====
import proofs.«419268_j46583215292539_1_alg».proof.Proof.KI.Hub
import proofs.«419268_j46583215292539_1_alg».proof.Proof.KI.ValLib
import proofs.«419268_j46583215292539_1_alg».proof.Proof.Spec
import Idealize.ShloMosaic.Lib.Pipeline.Value

noncomputable section

open scoped BigOperators

namespace Cert.KernelIdeal.Val2

open Idealize.ShloMosaic Idealize.ShloMosaic.TcCoe Idealize.ShloMosaic.ValueIdx
open Idealize.SL Idealize.SL.Sem
open Cert.KernelIdeal Cert.KernelIdeal.Gen Cert.KernelIdeal.ValLib

theorem pay_apply (x : Vec Ideal S1024x256 .f32) (w : Vec Ideal S256x128 .f32) (p : Fin 1024) (q : Fin 128) :
    k2_pay1 (F := Ideal) x w (ix2 p q) = ∑ j : Fin 256, x (ix2 p j) * w (ix2 j q) := by
  unfold k2_pay1
  simp only [shapeCast_self]
  exact matmul_plain_apply 1024 256 128 none _ _ p q

variable (V : (c : Dev nD) → (b : Ref sig .tc) → Buf (Elt Ideal) ((c : Thread nD τ).loc b))

theorem idx_facts : ∀ t : Fin cfg2.N,
    win2_0.index t (0 : Fin 2) = t.val ∧ win2_0.index t (1 : Fin 2) = 0
  ∧ win2_1.index t (0 : Fin 2) = 0 ∧ win2_1.index t (1 : Fin 2) = 0
  ∧ win2_2.index t (0 : Fin 2) = t.val ∧ win2_2.index t (1 : Fin 2) = 0 :=
  (by decide +kernel : ∀ t : Fin grid2.N, _)

/-- Entry (p, q) of the block stored at point t is entry (1024 t + p, q) of the product of the two arrays. -/
theorem flushed_eq (c : Dev nD) (dat : Pipeline.Dat τ (Elt Ideal) Unit ℕ (UR sig nD τ) ℕ cfg2 c)
    (hafter : ∀ t, dat.after 2 t = Hub.out2 (Hub.iblk2 V c 0 t) (Hub.iblk2 V c 1 t)) (t : Fin cfg2.N) :
    dat.flushed 2 t = ((cfg2.win 2).blk t).view.read (Elt Ideal)
      (Cert.Spec.mm (n := 8192) (k := 256) (p := 128) (V c (Pipeline.arrRef spec2 0)) (V c (Pipeline.arrRef spec2 1))) := by
  obtain ⟨e0, e1, e2, e3, e4, e5⟩ := idx_facts t
  show (cfg2.win 2).cut (grid2.coords t) (dat.after 2 t) = _
  rw [hafter]
  unfold Hub.out2
  rw [View.canon_unit_zero hz]
  simp only [View.ld_unit_zero (S := S1024x256) hz, View.ld_unit_zero (S := S256x128) hz]
  funext j
  obtain ⟨p, q, rfl⟩ : ∃ (p : Fin 1024) (q : Fin 128), j = ix2 p q := ⟨j 0, j 1, eq_ix2 j⟩
  refine (pay_apply _ _ p q).trans ?_
  rw [View.read_apply, show ∀ (X : Cert.Spec.Mat 8192 256) (W : Cert.Spec.Mat 256 128) (i : S8192x128.Idx),
    Cert.Spec.mm X W i = ∑ k : Fin 256, X (ix2 (i 0) k) * W (ix2 k (i 1)) from fun _ _ _ => rfl]
  refine Finset.sum_congr rfl fun k _ => congrArg₂ (fun a b : EReal => a * b) ?_ ?_ <;>
    unfold Hub.iblk2 <;> rw [View.read_apply]
  · refine congrArg (V c (Pipeline.arrRef spec2 0) : S8192x256.Idx → EReal) ((eq_ix2 _).trans (congrArg₂ ix2 (Fin.ext ?_) (Fin.ext ?_)))
    · show win2_0.index t (0 : Fin 2) * 1024 + 1 * p.val = win2_2.index t (0 : Fin 2) * 1024 + 1 * p.val; omega
    · show win2_0.index t (1 : Fin 2) * 256 + 1 * k.val = k.val; omega
  · refine congrArg (V c (Pipeline.arrRef spec2 1) : S256x128.Idx → EReal) ((eq_ix2 _).trans (congrArg₂ ix2 (Fin.ext ?_) (Fin.ext ?_)))
    · show win2_1.index t (0 : Fin 2) * 256 + 1 * k.val = k.val; omega
    · show win2_1.index t (1 : Fin 2) * 128 + 1 * q.val = win2_2.index t (1 : Fin 2) * 128 + 1 * q.val; omega

/-- Row r of the output lies in the block of point r / 1024. -/
theorem cover (i : S8192x128.Idx) :
    ∃ t : Fin cfg2.N, (cfg2.win 2).flush t = true ∧ i ∈ ((cfg2.win 2).blk t).view.set := by
  have hi0 : (i 0).val < 8192 := (i 0).isLt
  have hi1 : (i 1).val < 128 := (i 1).isLt
  obtain ⟨t, ht⟩ : ∃ t : Fin cfg2.N, t.val = (i 0).val / 1024 := ⟨⟨(i 0).val / 1024, by rw [show cfg2.N = 8 from N_2]; omega⟩, rfl⟩
  obtain ⟨-, -, -, -, e4, e5⟩ := idx_facts t
  refine ⟨t, flush2_2 t, ?_⟩
  show i ∈ ((View.whole main_v21).slice (win2_2.rect t)).set
  rw [View.set_slice_whole, Rect.mem_set_unit]
  intro a
  match a with
  | ⟨0, _⟩ =>
    show win2_2.index t (0 : Fin 2) * 1024 ≤ (i 0).val ∧ (i 0).val < win2_2.index t (0 : Fin 2) * 1024 + 1024
    omega
  | ⟨1, _⟩ =>
    show win2_2.index t (1 : Fin 2) * 128 ≤ (i 1).val ∧ (i 1).val < win2_2.index t (1 : Fin 2) * 128 + 128
    omega

theorem final2 (c : Dev nD) (dat : Pipeline.Dat τ (Elt Ideal) Unit ℕ (UR sig nD τ) ℕ cfg2 c)
    (hA : ∀ w, dat.A w = V c (Pipeline.arrRef spec2 w))
    (hafter : ∀ t, dat.after 2 t = Hub.out2 (Hub.iblk2 V c 0 t) (Hub.iblk2 V c 1 t)) :
    (dat.arrAt 2 cfg2.N : S8192x128.Idx → EReal)
      = Cert.Spec.mm (V c (Pipeline.arrRef spec2 0)) (V c (Pipeline.arrRef spec2 1)) :=
  dat.arrAt_eq_of_cover 2 _ (fun t _ => flushed_eq V c dat hafter t) cover

end Cert.KernelIdeal.Val2

end
-- ==== Proof.KI.Val3.lean ====
import proofs.«419268_j46583215292539_1_alg».proof.Proof.KI.Hub
import proofs.«419268_j46583215292539_1_alg».proof.Proof.KI.ValLib
import proofs.«419268_j46583215292539_1_alg».proof.Proof.Spec
import Idealize.ShloMosaic.Lib.Pipeline.Value
import Idealize.ShloMosaic.Lib.ValueLayout

noncomputable section

open scoped BigOperators

namespace Cert.KernelIdeal.Val3

open Idealize.ShloMosaic Idealize.ShloMosaic.TcCoe Idealize.ShloMosaic.ValueIdx
open Idealize.SL Idealize.SL.Sem
open Cert.KernelIdeal Cert.KernelIdeal.Gen Cert.KernelIdeal.ValLib

theorem pay1_apply (i : S2048x128.Idx) : (k3_pay1 (F := Ideal) : S2048x128.Idx → EReal) i = 0 := by
  unfold k3_pay1
  simp only [shapeCast_self]
  exact Ideal.ofBits_zero_f32

theorem pay2_apply (a : Vec Ideal S2048x2048 .bf16) (s acc : Vec Ideal S2048x128 .f32) (r : Fin 2048) (q : Fin 128) :
    (k3_pay2 (F := Ideal) a s acc : S2048x128.Idx → EReal) (ix2 r q)
      = acc (ix2 r q) + ∑ u : Fin 2048, (a (ix2 r u) : EReal) * s (ix2 u q) := by
  unfold k3_pay2
  simp only [shapeCast_self, matmul]
  rw [addf_apply]
  exact congrArg (acc (ix2 r q) + ·) (matmul_plain_apply 2048 2048 128 none _ _ r q)

theorem pay3_apply (b : Vec Ideal S1x128 .f32) (acc : Vec Ideal S2048x128 .f32) (r : Fin 2048) (q : Fin 128) :
    (k3_pay3 (F := Ideal) b acc : S2048x128.Idx → EReal) (ix2 r q)
      = Ideal.tanh (acc (ix2 r q) + b (ix2 (0 : Fin 1) q)) := by
  unfold k3_pay3
  simp only [shapeCast_self]
  show Ideal.tanh (acc (ix2 r q) + broadcastTo S2048x128 b broadcasts_S1x128_S2048x128 (ix2 r q)) = _
  rw [broadcastTo_1b_ab_apply]

variable (V : (c : Dev nD) → (b : Ref sig .tc) → Buf (Elt Ideal) ((c : Thread nD τ).loc b))

theorem idx_facts : ∀ t : Fin cfg3.N,
    win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = 0 ∧ win3_2.index t (1 : Fin 2) = 0
    ∧ win3_3.index t (0 : Fin 2) = t.val / 4 ∧ win3_3.index t (1 : Fin 2) = 0 :=
  (by decide +kernel : ∀ t : Fin grid3.N, _)

/-- Point t is (t / 4, t % 4): its left block starts at row 2048 (t / 4) and column 2048 (t % 4) of the left array. -/
theorem blkA_apply (c : Dev nD) (t : Fin cfg3.N) (r u : Fin 2048) (j : S8192x8192.Idx)
    (h0 : (j 0).val = 2048 * (t.val / 4) + r.val) (h1 : (j 1).val = 2048 * (t.val % 4) + u.val) :
    (Hub.iblk3 V c 0 t : S2048x2048.Idx → EReal) (ix2 r u) = (V c (Pipeline.arrRef spec3 0) : S8192x8192.Idx → EReal) j := by
  obtain ⟨e0, e1, -⟩ := idx_facts t
  unfold Hub.iblk3
  rw [View.read_apply]
  refine congrArg (V c (Pipeline.arrRef spec3 0) : S8192x8192.Idx → EReal) (funext fun a => Fin.ext ?_)
  match a with
  | ⟨0, _⟩ => show win3_0.index t (0 : Fin 2) * 2048 + 1 * r.val = (j 0).val; omega
  | ⟨1, _⟩ => show win3_0.index t (1 : Fin 2) * 2048 + 1 * u.val = (j 1).val; omega

theorem blkS_apply (c : Dev nD) (t : Fin cfg3.N) (u : Fin 2048) (q : Fin 128) (j : S8192x128.Idx)
    (h0 : (j 0).val = 2048 * (t.val % 4) + u.val) (h1 : (j 1).val = q.val) :
    (Hub.iblk3 V c 1 t : S2048x128.Idx → EReal) (ix2 u q) = (V c (Pipeline.arrRef spec3 1) : S8192x128.Idx → EReal) j := by
  obtain ⟨-, -, e0, e1, -⟩ := idx_facts t
  unfold Hub.iblk3
  rw [View.read_apply]
  refine congrArg (V c (Pipeline.arrRef spec3 1) : S8192x128.Idx → EReal) (funext fun a => Fin.ext ?_)
  match a with
  | ⟨0, _⟩ => show win3_1.index t (0 : Fin 2) * 2048 + 1 * u.val = (j 0).val; omega
  | ⟨1, _⟩ => show win3_1.index t (1 : Fin 2) * 128 + 1 * q.val = (j 1).val; omega

theorem blkB_apply (c : Dev nD) (t : Fin cfg3.N) (q : Fin 128) :
    (Hub.iblk3 V c 2 t : S1x128.Idx → EReal) (ix2 (0 : Fin 1) q) = (V c (Pipeline.arrRef spec3 2) : S1x128.Idx → EReal) (ix2 (0 : Fin 1) q) := by
  obtain ⟨-, -, -, -, e0, e1, -⟩ := idx_facts t
  unfold Hub.iblk3
  rw [View.read_apply]
  refine congrArg (V c (Pipeline.arrRef spec3 2) : S1x128.Idx → EReal) (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

theorem acc_reset (c : Dev nD) (n : ℕ) (h : n < cfg3.N) (hn : n % 4 = 0) :
    Hub.acc3 V c n h = k3_pay2 (Hub.iblk3 V c 0 ⟨n, h⟩) (Hub.iblk3 V c 1 ⟨n, h⟩) (k3_pay1 (F := Ideal)) := by
  cases n with
  | zero => rfl
  | succ n => unfold Hub.acc3; rw [if_pos hn]

theorem acc_step (c : Dev nD) (n : ℕ) (h : n + 1 < cfg3.N) (hn : (n + 1) % 4 ≠ 0) :
    Hub.acc3 V c (n + 1) h = k3_pay2 (Hub.iblk3 V c 0 ⟨n + 1, h⟩) (Hub.iblk3 V c 1 ⟨n + 1, h⟩) (Hub.acc3 V c n (Nat.lt_of_succ_lt h)) := by
  rw [Hub.acc3]; rw [if_neg hn]

abbrev P (c : Dev nD) : S8192x128.Idx → EReal :=
  Cert.Spec.mm (n := 8192) (k := 8192) (p := 128) (V c (Pipeline.arrRef spec3 0)) (V c (Pipeline.arrRef spec3 1))

abbrev G (c : Dev nD) : S8192x128.Idx → EReal :=
  Cert.Spec.act (P V c) (fun j => (V c (Pipeline.arrRef spec3 2) : S1x128.Idx → EReal) (ix2 (0 : Fin 1) (j 0)))

/-- The four steps of a run add the four runs of 2048 terms of row R of the product. -/
theorem acc_last (c : Dev nD) (n : ℕ) (h : n < cfg3.N) (hn : n % 4 = 3) (r : Fin 2048) (q : Fin 128) (R : Fin 8192)
    (hR : R.val = 2048 * (n / 4) + r.val) :
    (Hub.acc3 V c n h : S2048x128.Idx → EReal) (ix2 r q) = P V c (ix2 R q) := by
  have hN : cfg3.N = 16 := N_3
  obtain ⟨b, rfl⟩ : ∃ b, n = b + 3 := ⟨n - 3, by omega⟩
  have hk : ∀ k : Fin 4, b + k.val < cfg3.N := fun k => by have := k.isLt; omega
  rw [acc_step V c (b + 2) h (by omega), acc_step V c (b + 1) (by omega) (by omega),
    acc_step V c b (by omega) (by omega), acc_reset V c b (by omega) (by omega),
    pay2_apply, pay2_apply, pay2_apply, pay2_apply, pay1_apply]
  exact run4 (fun x => (V c (Pipeline.arrRef spec3 0) : S8192x8192.Idx → EReal) (ix2 R x)) (fun x => (V c (Pipeline.arrRef spec3 1) : S8192x128.Idx → EReal) (ix2 x q))
    (fun k u => (Hub.iblk3 V c 0 ⟨b + k.val, hk k⟩ : S2048x2048.Idx → EReal) (ix2 r u))
    (fun k u => (Hub.iblk3 V c 1 ⟨b + k.val, hk k⟩ : S2048x128.Idx → EReal) (ix2 u q))
    (fun k u => blkA_apply V c _ r u _ (by have := k.isLt; show R.val = 2048 * ((b + k.val) / 4) + r.val; omega)
      (by have := k.isLt; show 2048 * k.val + u.val = 2048 * ((b + k.val) % 4) + u.val; omega))
    (fun k u => blkS_apply V c _ u q _ (by have := k.isLt; show 2048 * k.val + u.val = 2048 * ((b + k.val) % 4) + u.val; omega) rfl)

theorem out_apply (c : Dev nD) (t : Fin cfg3.N) (ht : t.val % 4 = 3) (r : Fin 2048) (q : Fin 128) (j : S8192x128.Idx)
    (h0 : (j 0).val = 2048 * (t.val / 4) + r.val) (h1 : (j 1).val = q.val) :
    (Hub.out3 V c t : S2048x128.Idx → EReal) (ix2 r q) = G V c j := by
  obtain ⟨R, Q, rfl⟩ : ∃ (R : Fin 8192) (Q : Fin 128), j = ix2 R Q := ⟨j 0, j 1, eq_ix2 j⟩
  obtain rfl : Q = q := Fin.ext h1
  unfold Hub.out3
  rw [pay3_apply, blkB_apply, acc_last V c t.val t.isLt ht r Q R h0]
  rfl

theorem flushed_eq (c : Dev nD) (dat : Pipeline.Dat τ (Elt Ideal) Unit ℕ (UR sig nD τ) ℕ cfg3 c)
    (hafter : ∀ t : Fin cfg3.N, t.val % 4 = 3 → dat.after 3 t = Hub.out3 V c t)
    (t : Fin cfg3.N) (hf : (cfg3.win 3).flush t = true) :
    dat.flushed 3 t = ((cfg3.win 3).blk t).view.read (Elt Ideal) (G V c) := by
  have ht : t.val % 4 = 3 := (flush3_3 t).mp hf
  obtain ⟨-, -, -, -, -, -, e0, e1⟩ := idx_facts t
  show (cfg3.win 3).cut (grid3.coords t) (dat.after 3 t) = _
  rw [hafter t ht]
  funext y
  obtain ⟨r, q, rfl⟩ : ∃ (r : Fin 2048) (q : Fin 128), y = ix2 r q := ⟨y 0, y 1, eq_ix2 y⟩
  rw [View.read_apply]
  refine out_apply V c t ht r q _ ?_ ?_
  · show win3_3.index t (0 : Fin 2) * 2048 + 1 * r.val = _; omega
  · show win3_3.index t (1 : Fin 2) * 128 + 1 * q.val = _; omega

/-- Row R of the output lies in the block stored at point 4 (R / 2048) + 3. -/
theorem cover (i : S8192x128.Idx) :
    ∃ t : Fin cfg3.N, (cfg3.win 3).flush t = true ∧ i ∈ ((cfg3.win 3).blk t).view.set := by
  have hi0 : (i 0).val < 8192 := (i 0).isLt
  have hi1 : (i 1).val < 128 := (i 1).isLt
  obtain ⟨t, ht⟩ : ∃ t : Fin cfg3.N, t.val = 4 * ((i 0).val / 2048) + 3 :=
    ⟨⟨4 * ((i 0).val / 2048) + 3, by rw [show cfg3.N = 16 from N_3]; omega⟩, rfl⟩
  obtain ⟨-, -, -, -, -, -, e0, e1⟩ := idx_facts t
  refine ⟨t, (flush3_3 t).mpr (by omega), ?_⟩
  show i ∈ ((View.whole main_v23).slice (win3_3.rect t)).set
  rw [View.set_slice_whole, Rect.mem_set_unit]
  intro a
  match a with
  | ⟨0, _⟩ =>
    show win3_3.index t (0 : Fin 2) * 2048 ≤ (i 0).val ∧ (i 0).val < win3_3.index t (0 : Fin 2) * 2048 + 2048
    omega
  | ⟨1, _⟩ =>
    show win3_3.index t (1 : Fin 2) * 128 ≤ (i 1).val ∧ (i 1).val < win3_3.index t (1 : Fin 2) * 128 + 128
    omega

theorem final3 (c : Dev nD) (dat : Pipeline.Dat τ (Elt Ideal) Unit ℕ (UR sig nD τ) ℕ cfg3 c)
    (hA : ∀ w, dat.A w = V c (Pipeline.arrRef spec3 w))
    (hafter : ∀ t : Fin cfg3.N, t.val % 4 = 3 → dat.after 3 t = Hub.out3 V c t) :
    (dat.arrAt 3 cfg3.N : S8192x128.Idx → EReal)
      = Cert.Spec.act (Cert.Spec.mm (n := 8192) (k := 8192) (p := 128) (V c (Pipeline.arrRef spec3 0)) (V c (Pipeline.arrRef spec3 1)))
          (fun j => (V c (Pipeline.arrRef spec3 2) : S1x128.Idx → EReal) (ix2 (0 : Fin 1) (j 0))) :=
  dat.arrAt_eq_of_cover 3 (G V c) (fun t hf => flushed_eq V c dat hafter t hf) cover

end Cert.KernelIdeal.Val3

end
-- ==== Proof.KI.Val4.lean ====
import proofs.«419268_j46583215292539_1_alg».proof.Proof.KI.Hub
import proofs.«419268_j46583215292539_1_alg».proof.Proof.KI.ValLib
import proofs.«419268_j46583215292539_1_alg».proof.Proof.Spec
import Idealize.ShloMosaic.Lib.Pipeline.Value

noncomputable section

open scoped BigOperators

namespace Cert.KernelIdeal.Val4

open Idealize.ShloMosaic Idealize.ShloMosaic.TcCoe Idealize.ShloMosaic.ValueIdx
open Idealize.SL Idealize.SL.Sem
open Cert.KernelIdeal Cert.KernelIdeal.Gen Cert.KernelIdeal.ValLib

theorem pay_apply (m n l : Vec Ideal S1024x64 .f32) (j : S1024x64.Idx) :
    k4_pay1 (F := Ideal) m n l j = m j + n j * Ideal.exp (l j) := by
  unfold k4_pay1
  simp only [shapeCast_self]
  rfl

variable (V : (c : Dev nD) → (b : Ref sig .tc) → Buf (Elt Ideal) ((c : Thread nD τ).loc b))

theorem idx_facts : ∀ t : Fin cfg4.N,
    win4_0.index t (0 : Fin 2) = t.val ∧ win4_0.index t (1 : Fin 2) = 0
  ∧ win4_1.index t (0 : Fin 2) = t.val ∧ win4_1.index t (1 : Fin 2) = 0
  ∧ win4_2.index t (0 : Fin 2) = t.val ∧ win4_2.index t (1 : Fin 2) = 0
  ∧ win4_3.index t (0 : Fin 2) = t.val ∧ win4_3.index t (1 : Fin 2) = 0 :=
  (by decide +kernel : ∀ t : Fin grid4.N, _)

/-- Entry (p, q) of each input block and of the block stored at point t is entry (1024 t + p, q) of its array. -/
theorem flushed_eq (c : Dev nD) (dat : Pipeline.Dat τ (Elt Ideal) Unit ℕ (UR sig nD τ) ℕ cfg4 c)
    (hafter : ∀ t, dat.after 3 t = Hub.out4 (Hub.iblk4 V c 0 t) (Hub.iblk4 V c 1 t) (Hub.iblk4 V c 2 t))
    (t : Fin cfg4.N) :
    dat.flushed 3 t = ((cfg4.win 3).blk t).view.read (Elt Ideal)
      (Cert.Spec.latent (n := 8192) (p := 64) (V c (Pipeline.arrRef spec4 0)) (V c (Pipeline.arrRef spec4 1)) (V c (Pipeline.arrRef spec4 2))) := by
  obtain ⟨e0, e1, e2, e3, e4, e5, e6, e7⟩ := idx_facts t
  show (cfg4.win 3).cut (grid4.coords t) (dat.after 3 t) = _
  rw [hafter]
  unfold Hub.out4
  rw [View.canon_unit_zero hz]
  simp only [View.ld_unit_zero (S := S1024x64) hz]
  funext j
  obtain ⟨p, q, rfl⟩ : ∃ (p : Fin 1024) (q : Fin 64), j = ix2 p q := ⟨j 0, j 1, eq_ix2 j⟩
  refine (pay_apply _ _ _ (ix2 p q)).trans ?_
  rw [View.read_apply, show ∀ (M L N : Cert.Spec.Mat 8192 64) (i : S8192x64.Idx),
    Cert.Spec.latent M L N i = M i + N i * Ideal.exp (L i) from fun _ _ _ _ => rfl]
  refine congrArg₂ (fun a b : EReal => a + b) ?_ (congrArg₂ (fun a b : EReal => a * Ideal.exp b) ?_ ?_) <;>
    unfold Hub.iblk4 <;> rw [View.read_apply]
  · refine congrArg (V c (Pipeline.arrRef spec4 0) : S8192x64.Idx → EReal) (funext fun a => Fin.ext ?_)
    match a with
    | ⟨0, _⟩ => show win4_0.index t (0 : Fin 2) * 1024 + 1 * p.val = win4_3.index t (0 : Fin 2) * 1024 + 1 * p.val; omega
    | ⟨1, _⟩ => show win4_0.index t (1 : Fin 2) * 64 + 1 * q.val = win4_3.index t (1 : Fin 2) * 64 + 1 * q.val; omega
  · refine congrArg (V c (Pipeline.arrRef spec4 2) : S8192x64.Idx → EReal) (funext fun a => Fin.ext ?_)
    match a with
    | ⟨0, _⟩ => show win4_2.index t (0 : Fin 2) * 1024 + 1 * p.val = win4_3.index t (0 : Fin 2) * 1024 + 1 * p.val; omega
    | ⟨1, _⟩ => show win4_2.index t (1 : Fin 2) * 64 + 1 * q.val = win4_3.index t (1 : Fin 2) * 64 + 1 * q.val; omega
  · refine congrArg (V c (Pipeline.arrRef spec4 1) : S8192x64.Idx → EReal) (funext fun a => Fin.ext ?_)
    match a with
    | ⟨0, _⟩ => show win4_1.index t (0 : Fin 2) * 1024 + 1 * p.val = win4_3.index t (0 : Fin 2) * 1024 + 1 * p.val; omega
    | ⟨1, _⟩ => show win4_1.index t (1 : Fin 2) * 64 + 1 * q.val = win4_3.index t (1 : Fin 2) * 64 + 1 * q.val; omega

/-- Row r of the output lies in the block of point r / 1024. -/
theorem cover (i : S8192x64.Idx) :
    ∃ t : Fin cfg4.N, (cfg4.win 3).flush t = true ∧ i ∈ ((cfg4.win 3).blk t).view.set := by
  have hi0 : (i 0).val < 8192 := (i 0).isLt
  have hi1 : (i 1).val < 64 := (i 1).isLt
  obtain ⟨t, ht⟩ : ∃ t : Fin cfg4.N, t.val = (i 0).val / 1024 := ⟨⟨(i 0).val / 1024, by rw [show cfg4.N = 8 from N_4]; omega⟩, rfl⟩
  obtain ⟨-, -, -, -, -, -, e6, e7⟩ := idx_facts t
  refine ⟨t, flush4_3 t, ?_⟩
  show i ∈ ((View.whole main_v26).slice (win4_3.rect t)).set
  rw [View.set_slice_whole, Rect.mem_set_unit]
  intro a
  match a with
  | ⟨0, _⟩ =>
    show win4_3.index t (0 : Fin 2) * 1024 ≤ (i 0).val ∧ (i 0).val < win4_3.index t (0 : Fin 2) * 1024 + 1024
    omega
  | ⟨1, _⟩ =>
    show win4_3.index t (1 : Fin 2) * 64 ≤ (i 1).val ∧ (i 1).val < win4_3.index t (1 : Fin 2) * 64 + 64
    omega

theorem final4 (c : Dev nD) (dat : Pipeline.Dat τ (Elt Ideal) Unit ℕ (UR sig nD τ) ℕ cfg4 c)
    (hA : ∀ w, dat.A w = V c (Pipeline.arrRef spec4 w))
    (hafter : ∀ t, dat.after 3 t = Hub.out4 (Hub.iblk4 V c 0 t) (Hub.iblk4 V c 1 t) (Hub.iblk4 V c 2 t)) :
    (dat.arrAt 3 cfg4.N : S8192x64.Idx → EReal)
      = Cert.Spec.latent (V c (Pipeline.arrRef spec4 0)) (V c (Pipeline.arrRef spec4 1))
          (V c (Pipeline.arrRef spec4 2)) :=
  dat.arrAt_eq_of_cover 3 _ (fun t _ => flushed_eq V c dat hafter t) cover

end Cert.KernelIdeal.Val4

end
-- ==== Proof.KI.Val5.lean ====
import proofs.«419268_j46583215292539_1_alg».proof.Proof.KI.Hub
import proofs.«419268_j46583215292539_1_alg».proof.Proof.KI.ValLib
import proofs.«419268_j46583215292539_1_alg».proof.Proof.Spec
import Idealize.ShloMosaic.Lib.Pipeline.Value

noncomputable section

open scoped BigOperators

namespace Cert.KernelIdeal.Val5

open Idealize.ShloMosaic Idealize.ShloMosaic.TcCoe Idealize.ShloMosaic.ValueIdx
open Idealize.SL Idealize.SL.Sem
open Cert.KernelIdeal Cert.KernelIdeal.Gen Cert.KernelIdeal.ValLib

/-- Both operands are contracted along their columns: entry (p, q) sums row p of the left against row q of the right. -/
theorem pay_apply (zm zn : Vec Ideal S1024x64 .f32) (p q : Fin 1024) :
    k5_pay1 (F := Ideal) zm zn (ix2 p q) = Ideal.logistic (∑ d : Fin 64, zm (ix2 p d) * zn (ix2 q d)) := by
  unfold k5_pay1
  simp only [shapeCast_self]
  show Ideal.logistic _ = Ideal.logistic _
  refine congrArg Ideal.logistic ((Ideal.matmul_constant_zero_apply dot_S1024x64_S1024x64_S1024x1024_1_1_0_0_n_n none _ _ (ix2 p q)).trans ?_)
  rw [← Equiv.sum_comp (contrEquiv1 dot_S1024x64_S1024x64_S1024x1024_1_1_0_0_n_n 64 rfl rfl).symm]
  refine Finset.sum_congr rfl fun d _ => ?_
  have hd := contrEquiv1_symm_val dot_S1024x64_S1024x64_S1024x1024_1_1_0_0_n_n 64 rfl rfl d
  rw [show dot_S1024x64_S1024x64_S1024x1024_1_1_0_0_n_n.lhsIdx (ix2 p q) ((contrEquiv1 dot_S1024x64_S1024x64_S1024x1024_1_1_0_0_n_n 64 rfl rfl).symm d) = ix2 p d from
      (eq_ix2 _).trans (congrArg₂ ix2 (Fin.ext rfl) (Fin.ext ((dot_S1024x64_S1024x64_S1024x1024_1_1_0_0_n_n.lhsIdx_val_of_single rfl _ _).trans hd))),
    show dot_S1024x64_S1024x64_S1024x1024_1_1_0_0_n_n.rhsIdx (ix2 p q) ((contrEquiv1 dot_S1024x64_S1024x64_S1024x1024_1_1_0_0_n_n 64 rfl rfl).symm d) = ix2 q d from
      (eq_ix2 _).trans (congrArg₂ ix2 (Fin.ext rfl) (Fin.ext ((dot_S1024x64_S1024x64_S1024x1024_1_1_0_0_n_n.rhsIdx_val_of_single rfl _ _).trans hd)))]
  rfl

variable (V : (c : Dev nD) → (b : Ref sig .tc) → Buf (Elt Ideal) ((c : Thread nD τ).loc b))

theorem idx_facts : ∀ t : Fin cfg5.N,
    win5_0.index t (0 : Fin 2) = t.val / 8 ∧ win5_0.index t (1 : Fin 2) = 0
  ∧ win5_1.index t (0 : Fin 2) = t.val % 8 ∧ win5_1.index t (1 : Fin 2) = 0
  ∧ win5_2.index t (0 : Fin 2) = t.val / 8 ∧ win5_2.index t (1 : Fin 2) = t.val % 8 :=
  (by decide +kernel : ∀ t : Fin grid5.N, _)

/-- Point t is (t / 8, t % 8): its two input blocks are the rows of the array under the rows and the columns of the stored block. -/
theorem flushed_eq (c : Dev nD) (dat : Pipeline.Dat τ (Elt Ideal) Unit ℕ (UR sig nD τ) ℕ cfg5 c)
    (hafter : ∀ t, dat.after 2 t = Hub.out5 (Hub.iblk5 V c 0 t) (Hub.iblk5 V c 1 t)) (t : Fin cfg5.N) :
    dat.flushed 2 t = ((cfg5.win 2).blk t).view.read (Elt Ideal)
      (Cert.Spec.dec (n := 8192) (k := 64) (V c (Pipeline.arrRef spec5 0))) := by
  obtain ⟨e0, e1, e2, e3, e4, e5⟩ := idx_facts t
  show (cfg5.win 2).cut (grid5.coords t) (dat.after 2 t) = _
  rw [hafter]
  unfold Hub.out5
  rw [View.canon_unit_zero hz]
  simp only [View.ld_unit_zero (S := S1024x64) hz]
  funext j
  obtain ⟨p, q, rfl⟩ : ∃ (p : Fin 1024) (q : Fin 1024), j = ix2 p q := ⟨j 0, j 1, eq_ix2 j⟩
  refine (pay_apply _ _ p q).trans ?_
  rw [View.read_apply, show ∀ (Z : Cert.Spec.Mat 8192 64) (i : S8192x8192.Idx),
    Cert.Spec.dec Z i = Ideal.logistic (∑ d : Fin 64, Z (ix2 (i 0) d) * Z (ix2 (i 1) d)) from fun _ _ => rfl]
  refine congrArg Ideal.logistic (Finset.sum_congr rfl fun d _ => congrArg₂ (fun a b : EReal => a * b) ?_ ?_) <;>
    unfold Hub.iblk5 <;> rw [View.read_apply]
  · refine congrArg (V c (Pipeline.arrRef spec5 0) : S8192x64.Idx → EReal) ((eq_ix2 _).trans (congrArg₂ ix2 (Fin.ext ?_) (Fin.ext ?_)))
    · show win5_0.index t (0 : Fin 2) * 1024 + 1 * p.val = win5_2.index t (0 : Fin 2) * 1024 + 1 * p.val; omega
    · show win5_0.index t (1 : Fin 2) * 64 + 1 * d.val = d.val; omega
  · refine congrArg (V c (Pipeline.arrRef spec5 0) : S8192x64.Idx → EReal) ((eq_ix2 _).trans (congrArg₂ ix2 (Fin.ext ?_) (Fin.ext ?_)))
    · show win5_1.index t (0 : Fin 2) * 1024 + 1 * q.val = win5_2.index t (1 : Fin 2) * 1024 + 1 * q.val; omega
    · show win5_1.index t (1 : Fin 2) * 64 + 1 * d.val = d.val; omega

/-- Entry (r, s) of the output lies in the block of point 8 (r / 1024) + s / 1024. -/
theorem cover (i : S8192x8192.Idx) :
    ∃ t : Fin cfg5.N, (cfg5.win 2).flush t = true ∧ i ∈ ((cfg5.win 2).blk t).view.set := by
  have hi0 : (i 0).val < 8192 := (i 0).isLt
  have hi1 : (i 1).val < 8192 := (i 1).isLt
  obtain ⟨t, ht⟩ : ∃ t : Fin cfg5.N, t.val = 8 * ((i 0).val / 1024) + (i 1).val / 1024 :=
    ⟨⟨8 * ((i 0).val / 1024) + (i 1).val / 1024, by rw [show cfg5.N = 64 from N_5]; omega⟩, rfl⟩
  obtain ⟨-, -, -, -, e4, e5⟩ := idx_facts t
  refine ⟨t, flush5_2 t, ?_⟩
  show i ∈ ((View.whole main_v27).slice (win5_2.rect t)).set
  rw [View.set_slice_whole, Rect.mem_set_unit]
  intro a
  match a with
  | ⟨0, _⟩ =>
    show win5_2.index t (0 : Fin 2) * 1024 ≤ (i 0).val ∧ (i 0).val < win5_2.index t (0 : Fin 2) * 1024 + 1024
    omega
  | ⟨1, _⟩ =>
    show win5_2.index t (1 : Fin 2) * 1024 ≤ (i 1).val ∧ (i 1).val < win5_2.index t (1 : Fin 2) * 1024 + 1024
    omega

theorem final5 (c : Dev nD) (dat : Pipeline.Dat τ (Elt Ideal) Unit ℕ (UR sig nD τ) ℕ cfg5 c)
    (hA : ∀ w, dat.A w = V c (Pipeline.arrRef spec5 w))
    (hafter : ∀ t, dat.after 2 t = Hub.out5 (Hub.iblk5 V c 0 t) (Hub.iblk5 V c 1 t)) :
    (dat.arrAt 2 cfg5.N : S8192x8192.Idx → EReal) = Cert.Spec.dec (V c (Pipeline.arrRef spec5 0)) :=
  dat.arrAt_eq_of_cover 2 _ (fun t _ => flushed_eq V c dat hafter t) cover

end Cert.KernelIdeal.Val5

end
-- ==== Proof.KI.Chain.lean ====
import proofs.«419268_j46583215292539_1_alg».proof.Proof.KI.RunBase
import proofs.«419268_j46583215292539_1_alg».proof.Proof.KHost
import proofs.«419268_j46583215292539_1_alg».proof.Proof.KI.Val0
import proofs.«419268_j46583215292539_1_alg».proof.Proof.KI.Val1
import proofs.«419268_j46583215292539_1_alg».proof.Proof.KI.Val2
import proofs.«419268_j46583215292539_1_alg».proof.Proof.KI.Val3
import proofs.«419268_j46583215292539_1_alg».proof.Proof.KI.Val4
import proofs.«419268_j46583215292539_1_alg».proof.Proof.KI.Val5
import proofs.«419268_j46583215292539_1_alg».proof.Proof.SpecLaws

noncomputable section

open scoped BigOperators

namespace Cert.KernelIdeal.Chain

open Idealize.ShloMosaic Idealize.ShloMosaic.TcCoe Idealize.ShloMosaic.ValueIdx
open Idealize.SL Idealize.SL.Sem
open Cert.KernelIdeal Cert.KernelIdeal.Gen Cert.Spec

theorem row_of_vec {n : Nat} (b : Vc n) :
    (fun j : (⟨1, ![n]⟩ : Shape).Idx =>
      (fun i : (⟨2, ![1, n]⟩ : Shape).Idx => b (ix1 (i 1 : Fin n))) (ix2 (0 : Fin 1) (j 0 : Fin n))) = b := by
  funext j
  exact congrArg b (eq_ix1 j).symm

section Chain

variable (m : (ℓ : Loc nD τ sig) → Buf (Elt Ideal) ℓ) (c : Dev nD)

abbrev aRow : Ixs 262144 := m ((c : Thread nD τ).loc main_arg0)
abbrev aCol : Ixs 262144 := m ((c : Thread nD τ).loc main_arg1)
abbrev aVal : Vc 262144 := m ((c : Thread nD τ).loc main_arg2)
abbrev aX : Mat 8192 512 := m ((c : Thread nD τ).loc main_arg3)
abbrev aW1 : Mat 512 256 := m ((c : Thread nD τ).loc main_arg4)
abbrev aB1 : Vc 256 := m ((c : Thread nD τ).loc main_arg5)
abbrev aW2 : Mat 256 64 := m ((c : Thread nD τ).loc main_arg6)
abbrev aB2 : Vc 64 := m ((c : Thread nD τ).loc main_arg7)
abbrev aW3 : Mat 256 64 := m ((c : Thread nD τ).loc main_arg8)
abbrev aB3 : Vc 64 := m ((c : Thread nD τ).loc main_arg9)
abbrev aNoise : Mat 8192 64 := m ((c : Thread nD τ).loc main_arg10)

abbrev h1 : Mat 8192 256 := act (aggD (aRow m c) (aCol m c) (aVal m c) (mm (aX m c) (aW1 m c))) (aB1 m c)

abbrev h2 : Mat 8192 128 :=
  act (aggD (aRow m c) (aCol m c) (aVal m c) (mm (h1 m c) (hcat64 (aW2 m c) (aW3 m c)))) (vcat64 (aB2 m c) (aB3 m c))

theorem o2_eq : (Run.o2 m c : S8192x256.Idx → EReal) = mm (aX m c) (aW1 m c) := by
  unfold Run.o2
  refine (Val0.final0 (Run.rd (V1 m)) c _ (Reg0.A_eq0 _ c) (Reg0.after0_out _ c)).trans ?_
  exact congrArg₂ mm (KHost.found0 m c).1 (KHost.found0 m c).2

variable (hrow : InRange (aRow m c)) (hcol : InRange (aCol m c))
include hrow hcol

theorem o4_eq : (Run.o4 m c : S8192x256.Idx → EReal) = h1 m c := by
  unfold Run.o4
  refine (Val1.final1 (Run.rd (V3 m (Run.O1 m))) c _ (Reg1.A_eq1 _ c) (Reg1.after1_out _ c)).trans ?_
  have e15 := KHost.found1_v15 m (Run.O1 m) c hrow hcol
  have e16 : (V3 m (Run.O1 m) c main_v16 : S8192x256.Idx → EReal) = mm (aX m c) (aW1 m c) :=
    ((KHost.found1_v16 m (Run.O1 m) c).trans (Run.outsOf_16 m _ _ _ _ _ _ 2 c)).trans (o2_eq m c)
  have e17 : (fun j : S256.Idx => (V3 m (Run.O1 m) c main_v17 : S1x256.Idx → EReal) (ix2 (0 : Fin 1) (j 0 : Fin 256)))
      = aB1 m c := by
    rw [KHost.found1_v17 m (Run.O1 m) c]
    exact row_of_vec (aB1 m c)
  exact congrArg₂ act (congrArg₂ mm e15 e16) e17

theorem o6_eq : (Run.o6 m c : S8192x128.Idx → EReal) = mm (h1 m c) (hcat64 (aW2 m c) (aW3 m c)) := by
  unfold Run.o6
  refine (Val2.final2 (Run.rd (V5 m (Run.O2 m))) c _ (Reg2.A_eq2 _ c) (Reg2.after2_out _ c)).trans ?_
  have e18 : (V5 m (Run.O2 m) c main_v18 : S8192x256.Idx → EReal) = h1 m c :=
    ((KHost.found2_v18 m (Run.O2 m) c).trans (Run.outsOf_18 m _ _ _ _ _ _ 4 c)).trans (o4_eq m c hrow hcol)
  exact congrArg₂ mm e18 (KHost.found2_v19 m (Run.O2 m) c)

theorem o8_eq : (Run.o8 m c : S8192x128.Idx → EReal) = h2 m c := by
  unfold Run.o8
  refine (Val3.final3 (Run.rd (V7 m (Run.O3 m))) c _ (Reg3.A_eq3 _ c) (Reg3.after3_out _ c)).trans ?_
  have e15 := KHost.found3_v15 m (Run.O3 m) c hrow hcol
  have e21 : (V7 m (Run.O3 m) c main_v21 : S8192x128.Idx → EReal) = mm (h1 m c) (hcat64 (aW2 m c) (aW3 m c)) :=
    ((KHost.found3_v21 m (Run.O3 m) c).trans (Run.outsOf_21 m _ _ _ _ _ _ 6 c)).trans (o6_eq m c hrow hcol)
  have e22 : (fun j : S128.Idx => (V7 m (Run.O3 m) c main_v22 : S1x128.Idx → EReal) (ix2 (0 : Fin 1) (j 0 : Fin 128)))
      = vcat64 (aB2 m c) (aB3 m c) := by
    rw [KHost.found3_v22 m (Run.O3 m) c]
    exact row_of_vec (vcat64 (aB2 m c) (aB3 m c))
  exact congrArg₂ act (congrArg₂ mm e15 e21) e22

theorem o10_eq : (Run.o10 m c : S8192x64.Idx → EReal)
    = latent (colsL64 (h2 m c)) (colsR64 (h2 m c)) (aNoise m c) := by
  unfold Run.o10
  refine (Val4.final4 (Run.rd (V9 m (Run.O4 m))) c _ (Reg4.A_eq4 _ c) (Reg4.after4_out _ c)).trans ?_
  obtain ⟨e24, e25, e10⟩ := KHost.found4 m (Run.O4 m) c
  have e23 : (Run.O4 m 8 main_v23 c : S8192x128.Idx → EReal) = h2 m c :=
    (Run.outsOf_23 m _ _ _ _ _ _ 8 c).trans (o8_eq m c hrow hcol)
  rw [e23] at e24 e25
  exact congr (congrArg₂ latent e24 e25) e10

theorem z_eq : (Run.o10 m c : S8192x64.Idx → EReal)
    = zD (aRow m c) (aCol m c) (aVal m c) (aX m c) (aW1 m c) (aB1 m c) (aW2 m c) (aB2 m c) (aW3 m c) (aB3 m c)
        (aNoise m c) :=
  o10_eq m c hrow hcol

theorem adj_eq : (Run.o11 m c : S8192x8192.Idx → EReal)
    = dec (zD (aRow m c) (aCol m c) (aVal m c) (aX m c) (aW1 m c) (aB1 m c) (aW2 m c) (aB2 m c) (aW3 m c) (aB3 m c)
        (aNoise m c)) := by
  unfold Run.o11
  refine (Val5.final5 (Run.rd (V10 m (Run.O5 m))) c _ (Reg5.A_eq5 _ c) (Reg5.after5_2 _ c)).trans ?_
  have e26 : (V10 m (Run.O5 m) c main_v26 : S8192x64.Idx → EReal) = _ :=
    ((KHost.found5 m (Run.O5 m) c).trans (Run.outsOf_26 m _ _ _ _ _ _ 10 c)).trans (z_eq m c hrow hcol)
  exact congrArg (dec (n := 8192) (k := 64)) e26

end Chain

end Cert.KernelIdeal.Chain

end
-- ==== Proof.K.Hub.lean ====
import proofs.«419268_j46583215292539_1_alg».proof.Proof.Gen.Kernel.Launch
import proofs.«419268_j46583215292539_1_alg».proof.Proof.Gen.Kernel.Skeleton
import proofs.«419268_j46583215292539_1_alg».proof.Proof.Gen.Kernel.Points
import Idealize.ShloMosaic.Lib.Pipeline.FrameBody

noncomputable section

namespace Cert.Kernel.Hub

open Idealize.ShloMosaic Idealize.ShloMosaic.TcCoe
open Idealize.SL Idealize.SL.Sem
open Cert.Kernel Cert.Kernel.Gen

variable {F : FTy → Type} [FloatOps F]
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r1024x512 : Rect S1024x512 := Rect.unit (s := S1024x512) ![0, 0] S1024x512.size inb_S1024x512_S1024x512_0_0
abbrev r512x256 : Rect S512x256 := Rect.unit (s := S512x256) ![0, 0] S512x256.size inb_S512x256_S512x256_0_0
abbrev r1024x256 : Rect S1024x256 := Rect.unit (s := S1024x256) ![0, 0] S1024x256.size inb_S1024x256_S1024x256_0_0
abbrev r256x128 : Rect S256x128 := Rect.unit (s := S256x128) ![0, 0] S256x128.size inb_S256x128_S256x128_0_0
abbrev r1024x128 : Rect S1024x128 := Rect.unit (s := S1024x128) ![0, 0] S1024x128.size inb_S1024x128_S1024x128_0_0
abbrev r1024x64 : Rect S1024x64 := Rect.unit (s := S1024x64) ![0, 0] S1024x64.size inb_S1024x64_S1024x64_0_0
abbrev r1024x1024 : Rect S1024x1024 := Rect.unit (s := S1024x1024) ![0, 0] S1024x1024.size inb_S1024x1024_S1024x1024_0_0

def out0 (x : Vec F S1024x512 .f32) (w : Vec F S512x256 .f32) : Vec F S1024x256 .f32 :=
  View.canon [⟨r1024x256, k0_pay1 (View.ld x r1024x512) (View.ld w r512x256)⟩]

def out2 (x : Vec F S1024x256 .f32) (w : Vec F S256x128 .f32) : Vec F S1024x128 .f32 :=
  View.canon [⟨r1024x128, k2_pay1 (View.ld x r1024x256) (View.ld w r256x128)⟩]

def out4 (mean logstd noise : Vec F S1024x64 .f32) : Vec F S1024x64 .f32 :=
  View.canon [⟨r1024x64, k4_pay1 (View.ld mean r1024x64) (View.ld noise r1024x64) (View.ld logstd r1024x64)⟩]

def out5 (zm zn : Vec F S1024x64 .f32) : Vec F S1024x1024 .f32 :=
  View.canon [⟨r1024x1024, k5_pay1 (View.ld zm r1024x64) (View.ld zn r1024x64)⟩]

def acc1 (c : Dev nD) : (n : ℕ) → n < cfg1.N → Vec F S2048x256 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩)
      (if (n + 1) % 4 = 0 then k1_pay1 (F := F) else acc1 c n (Nat.lt_of_succ_lt h))

def out1 (c : Dev nD) (t : Fin cfg1.N) : Vec F S2048x256 .f32 :=
  k1_pay3 (iblk1 V c 2 t) (acc1 V c t.val t.isLt)

def acc3 (c : Dev nD) : (n : ℕ) → n < cfg3.N → Vec F S2048x128 .f32
  | 0, h => k3_pay2 (iblk3 V c 0 ⟨0, h⟩) (iblk3 V c 1 ⟨0, h⟩) (k3_pay1 (F := F))
  | n + 1, h => k3_pay2 (iblk3 V c 0 ⟨n + 1, h⟩) (iblk3 V c 1 ⟨n + 1, h⟩)
      (if (n + 1) % 4 = 0 then k3_pay1 (F := F) else acc3 c n (Nat.lt_of_succ_lt h))

def out3 (c : Dev nD) (t : Fin cfg3.N) : Vec F S2048x128 .f32 :=
  k3_pay3 (iblk3 V c 2 t) (acc3 V c t.val t.isLt)

end Cert.Kernel.Hub

end
-- ==== Proof.K.Reg0.lean ====
import proofs.«419268_j46583215292539_1_alg».proof.Proof.Gen.Kernel.Launch
import proofs.«419268_j46583215292539_1_alg».proof.Proof.Gen.Kernel.Skeleton
import proofs.«419268_j46583215292539_1_alg».proof.Proof.Gen.Kernel.Points
import proofs.«419268_j46583215292539_1_alg».proof.Proof.K.Hub
import proofs.«419268_j46583215292539_1_alg».proof.Proof.LibReg
import Idealize.ShloMosaic.Lib.Tactic

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hub Cert.LibReg

variable {F : FTy → Type} [FloatOps F]

local notation "𝕄" => MT nD τ sig Unit (Elt F) ℕ (UR sig nD τ) ℕ

variable (V : (c : Dev nD) → (b : Ref sig .tc) → Buf (Elt F) ((c : Thread nD τ).loc b))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_out (c : Dev nD) (t : Fin cfg0.N) :
    (dat0 V c).after 2 t = out0 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

set_option maxHeartbeats 1000000 in
theorem body_obligation0 (c : Dev nD) : BodyObligation (dat0 (F := F) V c) (defs₀ (F := F)) Variants.none () Set.univ := fun t => by
  rw [bigSep_W0, bigSep_W0]
  simp only [before0_0, before0_1]
  rw [show (dat0 V c).Φ t.succ = (dat0 V c).Φ t.castSucc from rfl,
    show (dat0 V c).owesAt () t.succ = (dat0 V c).owesAt () t.castSucc from rfl, after0_0, after0_1, after0_out]
  generalize iblk0 V c 0 t = x
  generalize iblk0 V c 1 t = w
  show _ ⊢ wp _ _ _ (bodyAt0 t) _
  unfold bodyAt0
  simp only [cc0__matmul_kernel_eq_skeleton]; unfold cc0__matmul_kernel_skel
  unfold owns
  iintro ⟨HΦ, Ho, ⟨%d1, %f1, %hf1, H1⟩, ⟨%d2, %f2, %hf2, H2⟩, ⟨%d3, %f3, -, H3⟩⟩
  subst hf1 hf2
  sl_exec
  sl_step
  iframe
  isplitl [H1]; · iapply (owns_of_read rfl) $$ H1
  isplitl [H2]; · iapply (owns_of_read rfl) $$ H2
  iapply (owns_of_read (View.read_writes_eq_canon _ _ _ fun y => ⟨_, .head _, View.mem_set_unit_zero hz inb_S1024x256_S1024x256_0_0 y⟩)) $$ H3

end Cert.Kernel.Reg0

end
-- ==== Proof.K.Reg1.lean ====
import proofs.«419268_j46583215292539_1_alg».proof.Proof.Gen.Kernel.Launch
import proofs.«419268_j46583215292539_1_alg».proof.Proof.Gen.Kernel.Skeleton
import proofs.«419268_j46583215292539_1_alg».proof.Proof.Gen.Kernel.Points
import proofs.«419268_j46583215292539_1_alg».proof.Proof.K.Hub
import proofs.«419268_j46583215292539_1_alg».proof.Proof.LibReg
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hub Cert.LibReg

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 := by decide +kernel

abbrev cond1_1 (i : grid1.Coords) : Prop := k1_cond2 i = 1#1
theorem hcond1_1 : ∀ t : Fin cfg1.N, cond1_1 (grid1.coords t) ↔ t.val % 4 = 3 := by decide +kernel

theorem idle1_at : ∀ t : Fin cfg1.N, cfg1.idle 0 (grid1.coords t) = false ∧ cfg1.idle 1 (grid1.coords t) = false
    ∧ cfg1.idle 2 (grid1.coords t) = false ∧ (t.val % 4 = 3 → cfg1.idle 3 (grid1.coords t) = false)
    ∧ (¬t.val % 4 = 3 → cfg1.idle 3 (grid1.coords t) = true ∧ (cfg1.win 3).flush t = false) := by decide +kernel

abbrev scM1 : Memref sig .tc .vmem S2048x256 .f32 := Memref.whole cc1_scratch0

abbrev inv1 (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

theorem PhiA1_eq (c : Dev nD) :
    (Pipeline.ΦA spec1 c : sProp 𝕄) = inv1 c iprop(∃ d, owns (c : Thread nD τ) scM1 fullShare d) := by
  unfold Pipeline.ΦA; rw [scopedRest1_split]; simp only [scM1, owns_whole]; try rfl

theorem sound_kernel1 {c : Dev nD} {E : Set ℕ} {i : grid1.Coords}
    {arg2 : Memref sig .tc .vmem S2048x2048 .bf16} {harg2 : arg2.IsWhole} {arg3 : Memref sig .tc .vmem S2048x256 .f32} {harg3 : arg3.IsWhole}
    {arg4 : Memref sig .tc .vmem S1x256 .f32} {harg4 : arg4.IsWhole} {arg5 : Memref sig .tc .vmem S2048x256 .f32} {harg5 : arg5.IsWhole}
    {arg6 : Memref sig .tc .vmem S2048x256 .f32} {harg6 : arg6.IsWhole}
    {x0 : Vec F S2048x2048 .bf16} {x1 : Vec F S2048x256 .f32} {x2 : Vec F S1x256 .f32} {xi3 xs z y : Vec F S2048x256 .f32}
    (hc : cond1_0 i ∧ ¬cond1_1 i ∧ z = k1_pay1 ∧ y = xi3 ∨ ¬cond1_0 i ∧ ¬cond1_1 i ∧ z = xs ∧ y = xi3
      ∨ ¬cond1_0 i ∧ cond1_1 i ∧ z = xs ∧ y = k1_pay3 x2 (k1_pay2 x0 x1 xs))
    {K : PUnit → sProp 𝕄} :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
        ∗ owns (c : Thread nD τ) arg5 fullShare y ∗ owns (c : Thread nD τ) arg6 fullShare (k1_pay2 x0 x1 z)) -∗ K ⟨⟩))
      ⊢ wp frame (wpE (defs₀ (F := F)) Variants.none c none) E (cc1__gcn_kernel i arg2 harg2 arg3 harg3 arg4 harg4 arg5 harg5 arg6 harg6) K := by
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  rcases hc with ⟨hc0, hc1, hz', hy⟩ | ⟨hc0, hc1, hz', hy⟩ | ⟨hc0, hc1, hz', hy⟩ <;>
  ( simp only [cc1__gcn_kernel_eq_skeleton]; unfold cc1__gcn_kernel_skel
    sl_exec (disch := first | exact hc0 | exact hc1)
    sl_step
    iapply Hk
    isplitl [H0]; · iapply (owns_of_read rfl) $$ H0
    isplitl [H1]; · iapply (owns_of_read rfl) $$ H1
    isplitl [H2]; · iapply (owns_of_read rfl) $$ H2
    isplitl [H3]
    all_goals first | iapply (owns_of_read ?_) $$ H3 | iapply (owns_of_read ?_) $$ HS
    all_goals subst hz' hy
    all_goals first
      | ( sl_unfold_words
          refine (read_store_whole _ _ hz _ _ _).trans ?_
          simp only [View.readAt_eq_ld, View.ld_unit_zero (S := S2048x2048) hz, View.ld_unit_zero (S := S2048x256) hz,
            View.ld_unit_zero (S := S1x256) hz, View.readCov_unit_zero (S := S2048x256) _ hz] )
      | rfl )

def PhiS (c : Dev nD) : (n : ℕ) → n ≤ cfg1.N → sProp 𝕄
  | 0, _ => Pipeline.ΦA spec1 c
  | n + 1, hn => inv1 c (owns (c : Thread nD τ) scM1 fullShare (acc1 V c n hn))

theorem PhiS_pos (c : Dev nD) (n : ℕ) (h : n ≤ cfg1.N) (hz : n ≠ 0) :
    PhiS V c n h = inv1 c (owns (c : Thread nD τ) scM1 fullShare (acc1 V c (n - 1) (by omega))) := by
  cases n with
  | zero => exact absurd rfl hz
  | succ n => rfl

theorem PhiS_out (c : Dev nD) (n : ℕ) (h : n ≤ cfg1.N) :
    PhiS V c n h ⊢ inv1 c iprop(∃ d, owns (c : Thread nD τ) scM1 fullShare d) := by
  cases n with
  | zero => exact Entails.of_eq (PhiA1_eq c)
  | succ n =>
    unfold PhiS inv1
    iintro ⟨⟨HS, HR⟩, Hg⟩
    iframe
    iexists _; iexact HS

theorem acc1_eq (c : Dev nD) (t : Fin cfg1.N) :
    acc1 V c t.val t.isLt = k1_pay2 (iblk1 V c 0 t) (iblk1 V c 1 t)
      (if t.val % 4 = 0 then k1_pay1 else acc1 V c (t.val - 1) (Nat.lt_of_le_of_lt (Nat.sub_le _ _) t.isLt)) := by
  obtain ⟨n, hn⟩ := t
  cases n <;> rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_out (c : Dev nD) (t : Fin cfg1.N) (h3 : t.val % 4 = 3) : (dat1 V c).after 3 t = out1 V c t := by dsimp only [dat1]

theorem before1 (c : Dev nD) (t : Fin cfg1.N) :
    (∀ d, (dat1 V c).before 0 t d = iblk1 V c 0 t) ∧ (∀ d, (dat1 V c).before 1 t d = iblk1 V c 1 t)
      ∧ ∀ d, (dat1 V c).before 2 t d = iblk1 V c 2 t := by
  refine ⟨fun d => ?_, fun d => ?_, fun d => ?_⟩ <;>
  exact ((dat1 V c).before_in_eq_fetched _ rfl (fun _ => rfl) (fun _ _ _ => rfl)
    (fun t => by dsimp only [dat1]; unfold Dat.blockOf iblk1; try rfl) t d).trans
    (by unfold Dat.fetched Dat.blockOf iblk1; rw [A_eq1]; try rfl)

theorem after1_in (c : Dev nD) (t : Fin cfg1.N) :
    (dat1 V c).leavesExact 0 t = owns (c : Thread nD τ) (st1_0 t) fullShare (iblk1 V c 0 t)
      ∧ (dat1 V c).leavesExact 1 t = owns (c : Thread nD τ) (st1_1 t) fullShare (iblk1 V c 1 t)
      ∧ (dat1 V c).leavesExact 2 t = owns (c : Thread nD τ) (st1_2 t) fullShare (iblk1 V c 2 t) := by
  refine ⟨?_, ?_, ?_⟩ <;>
  (unfold Dat.leavesExact; simp only [(idle1_at t).1, (idle1_at t).2.1, (idle1_at t).2.2.1]; rfl)

def bodyPre1 (c : Dev nD) (t : Fin cfg1.N) : sProp 𝕄 :=
  iprop(PhiS V c t.val (Nat.le_of_lt t.isLt) ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop(inv1 c (owns (c : Thread nD τ) scM1 fullShare (acc1 V c t.val t.isLt)) ∗ (dat1 V c).owesAt () t.castSucc
    ∗ (dat1 V c).leavesExact 0 t
    ∗ (dat1 V c).leavesExact 1 t
    ∗ (dat1 V c).leavesExact 2 t
    ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [(before1 V c t).1, (before1 V c t).2.1, (before1 V c t).2.2]
  rw [(after1_in V c t).1, (after1_in V c t).2.1, (after1_in V c t).2.2]
  by_cases h3 : t.val % 4 = 3
  · have h0 : ¬t.val % 4 = 0 := by omega
    rw [show (dat1 V c).leavesExact 3 t = owns (c : Thread nD τ) (st1_3 t) fullShare ((dat1 V c).after 3 t) from by
      unfold Dat.leavesExact; rw [(idle1_at t).2.2.2.1 h3], after1_out V c t h3]
    unfold out1
    rw [acc1_eq V c t, if_neg h0, PhiS_pos V c _ _ (by omega)]
    unfold inv1
    iintro ⟨⟨⟨HS, HR⟩, Hg⟩, Ho, ⟨%d0, H0⟩, ⟨%d1, H1⟩, ⟨%d2, H2⟩, ⟨%d3, H3⟩⟩
    iapply (sound_kernel1
      (.inr (.inr ⟨fun h => h0 ((hcond1_0 t).mp h), (hcond1_1 t).mpr h3, rfl, rfl⟩)))
    iframe
    iintro ⟨H0, H1, H2, H3, HS⟩
    iframe
  · rw [Dat.leavesExact_idle (dat1 V c) 3 t ((idle1_at t).2.2.2.2 h3).1 ((idle1_at t).2.2.2.2 h3).2]
    by_cases h0 : t.val % 4 = 0
    case' pos =>
      rw [acc1_eq V c t, if_pos h0]
      iintro ⟨HΦ, Ho, ⟨%d0, H0⟩, ⟨%d1, H1⟩, ⟨%d2, H2⟩, ⟨%d3, H3⟩⟩
      ihave HΦ := (PhiS_out V c _ _) $$ HΦ
      unfold inv1
      icases HΦ with ⟨⟨⟨%ds, HS⟩, HR⟩, Hg⟩
      iapply (sound_kernel1
        (.inl ⟨(hcond1_0 t).mpr h0, fun h => h3 ((hcond1_1 t).mp h), rfl, rfl⟩))
    case' neg =>
      rw [acc1_eq V c t, if_neg h0, PhiS_pos V c _ _ fun e => h0 (by rw [e])]
      unfold inv1
      iintro ⟨⟨⟨HS, HR⟩, Hg⟩, Ho, ⟨%d0, H0⟩, ⟨%d1, H1⟩, ⟨%d2, H2⟩, ⟨%d3, H3⟩⟩
      iapply (sound_kernel1
        (.inr (.inl ⟨fun h => h0 ((hcond1_0 t).mp h), fun h => h3 ((hcond1_1 t).mp h), rfl, rfl⟩)))
    all_goals
      iframe
      iintro ⟨H0, H1, H2, H3, HS⟩
      iframe
      iexists _; iexact H3

theorem body_obligation1 (c : Dev nD) : BodyObligation (dat1 (F := F) V c) (defs₀ (F := F)) Variants.none () Set.univ := fun t => by
  rw [bigSep_W1, bigSep_W1]
  exact sound_body1 V c t

theorem hout1 (c : Dev nD) : (dat1 V c).Φ (Fin.last cfg1.N) ⊢ Pipeline.ΦA spec1 c :=
  (PhiS_out V c cfg1.N (Nat.le_refl _)).trans (Entails.of_eq (PhiA1_eq c).symm)

end Cert.Kernel.Reg1

end
-- ==== Proof.K.Reg2.lean ====
import proofs.«419268_j46583215292539_1_alg».proof.Proof.Gen.Kernel.Launch
import proofs.«419268_j46583215292539_1_alg».proof.Proof.Gen.Kernel.Skeleton
import proofs.«419268_j46583215292539_1_alg».proof.Proof.Gen.Kernel.Points
import proofs.«419268_j46583215292539_1_alg».proof.Proof.K.Hub
import proofs.«419268_j46583215292539_1_alg».proof.Proof.LibReg
import Idealize.ShloMosaic.Lib.Tactic

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hub Cert.LibReg

variable {F : FTy → Type} [FloatOps F]

local notation "𝕄" => MT nD τ sig Unit (Elt F) ℕ (UR sig nD τ) ℕ

variable (V : (c : Dev nD) → (b : Ref sig .tc) → Buf (Elt F) ((c : Thread nD τ).loc b))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_out (c : Dev nD) (t : Fin cfg2.N) :
    (dat2 V c).after 2 t = out2 (iblk2 V c 0 t) (iblk2 V c 1 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

set_option maxHeartbeats 1000000 in
theorem body_obligation2 (c : Dev nD) : BodyObligation (dat2 (F := F) V c) (defs₀ (F := F)) Variants.none () Set.univ := fun t => by
  rw [bigSep_W2, bigSep_W2]
  simp only [before2_0, before2_1]
  rw [show (dat2 V c).Φ t.succ = (dat2 V c).Φ t.castSucc from rfl,
    show (dat2 V c).owesAt () t.succ = (dat2 V c).owesAt () t.castSucc from rfl, after2_0, after2_1, after2_out]
  generalize iblk2 V c 0 t = x
  generalize iblk2 V c 1 t = w
  show _ ⊢ wp _ _ _ (bodyAt2 t) _
  unfold bodyAt2
  simp only [cc2__matmul_kernel_eq_skeleton]; unfold cc2__matmul_kernel_skel
  unfold owns
  iintro ⟨HΦ, Ho, ⟨%d1, %f1, %hf1, H1⟩, ⟨%d2, %f2, %hf2, H2⟩, ⟨%d3, %f3, -, H3⟩⟩
  subst hf1 hf2
  sl_exec
  sl_step
  iframe
  isplitl [H1]; · iapply (owns_of_read rfl) $$ H1
  isplitl [H2]; · iapply (owns_of_read rfl) $$ H2
  iapply (owns_of_read (View.read_writes_eq_canon _ _ _ fun y => ⟨_, .head _, View.mem_set_unit_zero hz inb_S1024x128_S1024x128_0_0 y⟩)) $$ H3

end Cert.Kernel.Reg2

end
-- ==== Proof.K.Reg3.lean ====
import proofs.«419268_j46583215292539_1_alg».proof.Proof.Gen.Kernel.Launch
import proofs.«419268_j46583215292539_1_alg».proof.Proof.Gen.Kernel.Skeleton
import proofs.«419268_j46583215292539_1_alg».proof.Proof.Gen.Kernel.Points
import proofs.«419268_j46583215292539_1_alg».proof.Proof.K.Hub
import proofs.«419268_j46583215292539_1_alg».proof.Proof.LibReg
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Reg3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hub Cert.LibReg

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop :=
  (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 := by decide +kernel

abbrev cond3_1 (i : grid3.Coords) : Prop := k3_cond2 i = 1#1
theorem hcond3_1 : ∀ t : Fin cfg3.N, cond3_1 (grid3.coords t) ↔ t.val % 4 = 3 := by decide +kernel

theorem idle3_at : ∀ t : Fin cfg3.N, cfg3.idle 0 (grid3.coords t) = false ∧ cfg3.idle 1 (grid3.coords t) = false
    ∧ cfg3.idle 2 (grid3.coords t) = false ∧ (t.val % 4 = 3 → cfg3.idle 3 (grid3.coords t) = false)
    ∧ (¬t.val % 4 = 3 → cfg3.idle 3 (grid3.coords t) = true ∧ (cfg3.win 3).flush t = false) := by decide +kernel

abbrev scM3 : Memref sig .tc .vmem S2048x128 .f32 := Memref.whole cc3_scratch0

abbrev inv3 (c : Dev nD) (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq (c : Dev nD) :
    (Pipeline.ΦA spec3 c : sProp 𝕄) = inv3 c iprop(∃ d, owns (c : Thread nD τ) scM3 fullShare d) := by
  unfold Pipeline.ΦA; rw [scopedRest3_split]; simp only [scM3, owns_whole]; try rfl

theorem sound_kernel3 {c : Dev nD} {E : Set ℕ} {i : grid3.Coords}
    {arg2 : Memref sig .tc .vmem S2048x2048 .bf16} {harg2 : arg2.IsWhole} {arg3 : Memref sig .tc .vmem S2048x128 .f32} {harg3 : arg3.IsWhole}
    {arg4 : Memref sig .tc .vmem S1x128 .f32} {harg4 : arg4.IsWhole} {arg5 : Memref sig .tc .vmem S2048x128 .f32} {harg5 : arg5.IsWhole}
    {arg6 : Memref sig .tc .vmem S2048x128 .f32} {harg6 : arg6.IsWhole}
    {x0 : Vec F S2048x2048 .bf16} {x1 : Vec F S2048x128 .f32} {x2 : Vec F S1x128 .f32} {xi3 xs z y : Vec F S2048x128 .f32}
    (hc : cond3_0 i ∧ ¬cond3_1 i ∧ z = k3_pay1 ∧ y = xi3 ∨ ¬cond3_0 i ∧ ¬cond3_1 i ∧ z = xs ∧ y = xi3
      ∨ ¬cond3_0 i ∧ cond3_1 i ∧ z = xs ∧ y = k3_pay3 x2 (k3_pay2 x0 x1 xs))
    {K : PUnit → sProp 𝕄} :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
        ∗ owns (c : Thread nD τ) arg5 fullShare y ∗ owns (c : Thread nD τ) arg6 fullShare (k3_pay2 x0 x1 z)) -∗ K ⟨⟩))
      ⊢ wp frame (wpE (defs₀ (F := F)) Variants.none c none) E (cc3__gcn_kernel i arg2 harg2 arg3 harg3 arg4 harg4 arg5 harg5 arg6 harg6) K := by
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  rcases hc with ⟨hc0, hc1, hz', hy⟩ | ⟨hc0, hc1, hz', hy⟩ | ⟨hc0, hc1, hz', hy⟩ <;>
  ( simp only [cc3__gcn_kernel_eq_skeleton]; unfold cc3__gcn_kernel_skel
    sl_exec (disch := first | exact hc0 | exact hc1)
    sl_step
    iapply Hk
    isplitl [H0]; · iapply (owns_of_read rfl) $$ H0
    isplitl [H1]; · iapply (owns_of_read rfl) $$ H1
    isplitl [H2]; · iapply (owns_of_read rfl) $$ H2
    isplitl [H3]
    all_goals first | iapply (owns_of_read ?_) $$ H3 | iapply (owns_of_read ?_) $$ HS
    all_goals subst hz' hy
    all_goals first
      | ( sl_unfold_words
          refine (read_store_whole _ _ hz _ _ _).trans ?_
          simp only [View.readAt_eq_ld, View.ld_unit_zero (S := S2048x2048) hz, View.ld_unit_zero (S := S2048x128) hz,
            View.ld_unit_zero (S := S1x128) hz, View.readCov_unit_zero (S := S2048x128) _ hz] )
      | rfl )

def PhiS (c : Dev nD) : (n : ℕ) → n ≤ cfg3.N → sProp 𝕄
  | 0, _ => Pipeline.ΦA spec3 c
  | n + 1, hn => inv3 c (owns (c : Thread nD τ) scM3 fullShare (acc3 V c n hn))

theorem PhiS_pos (c : Dev nD) (n : ℕ) (h : n ≤ cfg3.N) (hz : n ≠ 0) :
    PhiS V c n h = inv3 c (owns (c : Thread nD τ) scM3 fullShare (acc3 V c (n - 1) (by omega))) := by
  cases n with
  | zero => exact absurd rfl hz
  | succ n => rfl

theorem PhiS_out (c : Dev nD) (n : ℕ) (h : n ≤ cfg3.N) :
    PhiS V c n h ⊢ inv3 c iprop(∃ d, owns (c : Thread nD τ) scM3 fullShare d) := by
  cases n with
  | zero => exact Entails.of_eq (PhiA3_eq c)
  | succ n =>
    unfold PhiS inv3
    iintro ⟨⟨HS, HR⟩, Hg⟩
    iframe
    iexists _; iexact HS

theorem acc3_eq (c : Dev nD) (t : Fin cfg3.N) :
    acc3 V c t.val t.isLt = k3_pay2 (iblk3 V c 0 t) (iblk3 V c 1 t)
      (if t.val % 4 = 0 then k3_pay1 else acc3 V c (t.val - 1) (Nat.lt_of_le_of_lt (Nat.sub_le _ _) t.isLt)) := by
  obtain ⟨n, hn⟩ := t
  cases n <;> rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 V c t
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_out (c : Dev nD) (t : Fin cfg3.N) (h3 : t.val % 4 = 3) : (dat3 V c).after 3 t = out3 V c t := by dsimp only [dat3]

theorem before3 (c : Dev nD) (t : Fin cfg3.N) :
    (∀ d, (dat3 V c).before 0 t d = iblk3 V c 0 t) ∧ (∀ d, (dat3 V c).before 1 t d = iblk3 V c 1 t)
      ∧ ∀ d, (dat3 V c).before 2 t d = iblk3 V c 2 t := by
  refine ⟨fun d => ?_, fun d => ?_, fun d => ?_⟩ <;>
  exact ((dat3 V c).before_in_eq_fetched _ rfl (fun _ => rfl) (fun _ _ _ => rfl)
    (fun t => by dsimp only [dat3]; unfold Dat.blockOf iblk3; try rfl) t d).trans
    (by unfold Dat.fetched Dat.blockOf iblk3; rw [A_eq3]; try rfl)

theorem after3_in (c : Dev nD) (t : Fin cfg3.N) :
    (dat3 V c).leavesExact 0 t = owns (c : Thread nD τ) (st3_0 t) fullShare (iblk3 V c 0 t)
      ∧ (dat3 V c).leavesExact 1 t = owns (c : Thread nD τ) (st3_1 t) fullShare (iblk3 V c 1 t)
      ∧ (dat3 V c).leavesExact 2 t = owns (c : Thread nD τ) (st3_2 t) fullShare (iblk3 V c 2 t) := by
  refine ⟨?_, ?_, ?_⟩ <;>
  (unfold Dat.leavesExact; simp only [(idle3_at t).1, (idle3_at t).2.1, (idle3_at t).2.2.1]; rfl)

def bodyPre3 (c : Dev nD) (t : Fin cfg3.N) : sProp 𝕄 :=
  iprop(PhiS V c t.val (Nat.le_of_lt t.isLt) ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop(inv3 c (owns (c : Thread nD τ) scM3 fullShare (acc3 V c t.val t.isLt)) ∗ (dat3 V c).owesAt () t.castSucc
    ∗ (dat3 V c).leavesExact 0 t
    ∗ (dat3 V c).leavesExact 1 t
    ∗ (dat3 V c).leavesExact 2 t
    ∗ (dat3 V c).leavesExact 3 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [(before3 V c t).1, (before3 V c t).2.1, (before3 V c t).2.2]
  rw [(after3_in V c t).1, (after3_in V c t).2.1, (after3_in V c t).2.2]
  by_cases h3 : t.val % 4 = 3
  · have h0 : ¬t.val % 4 = 0 := by omega
    rw [show (dat3 V c).leavesExact 3 t = owns (c : Thread nD τ) (st3_3 t) fullShare ((dat3 V c).after 3 t) from by
      unfold Dat.leavesExact; rw [(idle3_at t).2.2.2.1 h3], after3_out V c t h3]
    unfold out3
    rw [acc3_eq V c t, if_neg h0, PhiS_pos V c _ _ (by omega)]
    unfold inv3
    iintro ⟨⟨⟨HS, HR⟩, Hg⟩, Ho, ⟨%d0, H0⟩, ⟨%d1, H1⟩, ⟨%d2, H2⟩, ⟨%d3, H3⟩⟩
    iapply (sound_kernel3
      (.inr (.inr ⟨fun h => h0 ((hcond3_0 t).mp h), (hcond3_1 t).mpr h3, rfl, rfl⟩)))
    iframe
    iintro ⟨H0, H1, H2, H3, HS⟩
    iframe
  · rw [Dat.leavesExact_idle (dat3 V c) 3 t ((idle3_at t).2.2.2.2 h3).1 ((idle3_at t).2.2.2.2 h3).2]
    by_cases h0 : t.val % 4 = 0
    case' pos =>
      rw [acc3_eq V c t, if_pos h0]
      iintro ⟨HΦ, Ho, ⟨%d0, H0⟩, ⟨%d1, H1⟩, ⟨%d2, H2⟩, ⟨%d3, H3⟩⟩
      ihave HΦ := (PhiS_out V c _ _) $$ HΦ
      unfold inv3
      icases HΦ with ⟨⟨⟨%ds, HS⟩, HR⟩, Hg⟩
      iapply (sound_kernel3
        (.inl ⟨(hcond3_0 t).mpr h0, fun h => h3 ((hcond3_1 t).mp h), rfl, rfl⟩))
    case' neg =>
      rw [acc3_eq V c t, if_neg h0, PhiS_pos V c _ _ fun e => h0 (by rw [e])]
      unfold inv3
      iintro ⟨⟨⟨HS, HR⟩, Hg⟩, Ho, ⟨%d0, H0⟩, ⟨%d1, H1⟩, ⟨%d2, H2⟩, ⟨%d3, H3⟩⟩
      iapply (sound_kernel3
        (.inr (.inl ⟨fun h => h0 ((hcond3_0 t).mp h), fun h => h3 ((hcond3_1 t).mp h), rfl, rfl⟩)))
    all_goals
      iframe
      iintro ⟨H0, H1, H2, H3, HS⟩
      iframe
      iexists _; iexact H3

theorem body_obligation3 (c : Dev nD) : BodyObligation (dat3 (F := F) V c) (defs₀ (F := F)) Variants.none () Set.univ := fun t => by
  rw [bigSep_W3, bigSep_W3]
  exact sound_body3 V c t

theorem hout3 (c : Dev nD) : (dat3 V c).Φ (Fin.last cfg3.N) ⊢ Pipeline.ΦA spec3 c :=
  (PhiS_out V c cfg3.N (Nat.le_refl _)).trans (Entails.of_eq (PhiA3_eq c).symm)

end Cert.Kernel.Reg3

end
-- ==== Proof.K.Reg4.lean ====
import proofs.«419268_j46583215292539_1_alg».proof.Proof.Gen.Kernel.Launch
import proofs.«419268_j46583215292539_1_alg».proof.Proof.Gen.Kernel.Skeleton
import proofs.«419268_j46583215292539_1_alg».proof.Proof.Gen.Kernel.Points
import proofs.«419268_j46583215292539_1_alg».proof.Proof.K.Hub
import proofs.«419268_j46583215292539_1_alg».proof.Proof.LibReg
import Idealize.ShloMosaic.Lib.Tactic

set_option maxRecDepth 16384

noncomputable section

namespace Cert.Kernel.Reg4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hub Cert.LibReg

variable {F : FTy → Type} [FloatOps F]

local notation "𝕄" => MT nD τ sig Unit (Elt F) ℕ (UR sig nD τ) ℕ

variable (V : (c : Dev nD) → (b : Ref sig .tc) → Buf (Elt F) ((c : Thread nD τ).loc b))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_out (c : Dev nD) (t : Fin cfg4.N) :
    (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

set_option maxHeartbeats 1000000 in
theorem body_obligation4 (c : Dev nD) : BodyObligation (dat4 (F := F) V c) (defs₀ (F := F)) Variants.none () Set.univ := fun t => by
  rw [bigSep_W4, bigSep_W4]
  simp only [before4_0, before4_1, before4_2]
  rw [show (dat4 V c).Φ t.succ = (dat4 V c).Φ t.castSucc from rfl,
    show (dat4 V c).owesAt () t.succ = (dat4 V c).owesAt () t.castSucc from rfl, after4_0, after4_1, after4_2, after4_out]
  generalize iblk4 V c 0 t = x0
  generalize iblk4 V c 1 t = x1
  generalize iblk4 V c 2 t = x2
  show _ ⊢ wp _ _ _ (bodyAt4 t) _
  unfold bodyAt4
  simp only [cc4__reparam_kernel_eq_skeleton]; unfold cc4__reparam_kernel_skel
  unfold owns
  iintro ⟨HΦ, Ho, ⟨%d1, %f1, %hf1, H1⟩, ⟨%d2, %f2, %hf2, H2⟩, ⟨%d3, %f3, %hf3, H3⟩, ⟨%d4, %f4, -, H4⟩⟩
  subst hf1 hf2 hf3
  sl_exec
  sl_step
  iframe
  isplitl [H1]; · iapply (owns_of_read rfl) $$ H1
  isplitl [H2]; · iapply (owns_of_read rfl) $$ H2
  isplitl [H3]; · iapply (owns_of_read rfl) $$ H3
  iapply (owns_of_read (View.read_writes_eq_canon _ _ _ fun y => ⟨_, .head _, View.mem_set_unit_zero hz inb_S1024x64_S1024x64_0_0 y⟩)) $$ H4

end Cert.Kernel.Reg4

end
-- ==== Proof.K.Reg5.lean ====
import proofs.«419268_j46583215292539_1_alg».proof.Proof.Gen.Kernel.Launch
import proofs.«419268_j46583215292539_1_alg».proof.Proof.Gen.Kernel.Skeleton
import proofs.«419268_j46583215292539_1_alg».proof.Proof.Gen.Kernel.Points
import proofs.«419268_j46583215292539_1_alg».proof.Proof.K.Hub
import proofs.«419268_j46583215292539_1_alg».proof.Proof.LibReg
import Idealize.ShloMosaic.Lib.Tactic

set_option maxRecDepth 16384

noncomputable section

namespace Cert.Kernel.Reg5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibReg

variable {F : FTy → Type} [FloatOps F]

local notation "𝕄" => MT nD τ sig Unit (Elt F) ℕ (UR sig nD τ) ℕ

variable (V : (c : Dev nD) → (b : Ref sig .tc) → Buf (Elt F) ((c : Thread nD τ).loc b))

def dat5 (c : Dev nD) : Dat τ (Elt F) Unit ℕ (UR sig nD τ) ℕ cfg5 c where
  A w := V c (Pipeline.arrRef spec5 w)
  after w t := match w with
    | ⟨0, _⟩ => Hub.iblk5 V c 0 t
    | ⟨1, _⟩ => Hub.iblk5 V c 1 t
    | ⟨2, _⟩ => Hub.out5 (Hub.iblk5 V c 0 t) (Hub.iblk5 V c 1 t)
  Φ _ := Pipeline.ΦA spec5 c
  q w := match w with
    | ⟨0, _⟩ => fullShare.left
    | ⟨1, _⟩ => fullShare.right
    | ⟨2, _⟩ => fullShare
  owed _ := 0

theorem A_eq5 (c : Dev nD) (w : Fin cfg5.W) : (dat5 V c).A w = V c (Pipeline.arrRef spec5 w) := rfl

theorem after5_0 (c : Dev nD) (t : Fin cfg5.N) : (dat5 V c).after 0 t = Hub.iblk5 V c 0 t := by dsimp only [dat5]
theorem after5_1 (c : Dev nD) (t : Fin cfg5.N) : (dat5 V c).after 1 t = Hub.iblk5 V c 1 t := by dsimp only [dat5]
theorem after5_2 (c : Dev nD) (t : Fin cfg5.N) :
    (dat5 V c).after 2 t = Hub.out5 (Hub.iblk5 V c 0 t) (Hub.iblk5 V c 1 t) := by dsimp only [dat5]

theorem before5_0 (c : Dev nD) (t : Fin cfg5.N) (d) : (dat5 V c).before 0 t d = Hub.iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = Hub.iblk5 V c 1 t :=
  (dat5 V c).before_in_eq_fetched 1 rfl (fun _ => rfl) (fun _ _ _ => rfl) (fun _ => rfl) t d

set_option maxHeartbeats 1000000 in
theorem body_obligation5 (c : Dev nD) : BodyObligation (dat5 (F := F) V c) (defs₀ (F := F)) Variants.none () Set.univ := fun t => by
  rw [bigSep_W5, bigSep_W5]
  simp only [before5_0, before5_1]
  rw [show (dat5 V c).Φ t.succ = (dat5 V c).Φ t.castSucc from rfl,
    show (dat5 V c).owesAt () t.succ = (dat5 V c).owesAt () t.castSucc from rfl, after5_0, after5_1, after5_2]
  generalize Hub.iblk5 V c 0 t = x0
  generalize Hub.iblk5 V c 1 t = x1
  show _ ⊢ wp _ _ _ (bodyAt5 t) _
  unfold bodyAt5
  simp only [cc5__decode_kernel_eq_skeleton]; unfold cc5__decode_kernel_skel
  unfold owns
  iintro ⟨HΦ, Ho, ⟨%d1, %f1, %hf1, H1⟩, ⟨%d2, %f2, %hf2, H2⟩, ⟨%d3, %f3, -, H3⟩⟩
  subst hf1 hf2
  sl_exec
  sl_step
  iframe
  isplitl [H1]; · iapply (owns_of_read rfl) $$ H1
  isplitl [H2]; · iapply (owns_of_read rfl) $$ H2
  iapply (owns_of_read (View.read_writes_eq_canon _ _ _ fun y => ⟨_, .head _, View.mem_set_unit_zero hz inb_S1024x1024_S1024x1024_0_0 y⟩)) $$ H3

theorem unscopedBufs5 (c : Dev nD) (W : (b : Ref sig .tc) → Buf (Elt F) ((c : Thread nD τ).loc b)) :
    (unscopedBufs c W : sProp 𝕄)
      = iprop(((((c : Thread nD τ).loc (Pipeline.arrRef spec5 0)) ↦{fullShare} W (Pipeline.arrRef spec5 0))
          ∗ (((c : Thread nD τ).loc (Pipeline.arrRef spec5 2)) ↦{fullShare} W (Pipeline.arrRef spec5 2)))
        ∗ Pipeline.unscopedRest spec5 c W) := by
  rw [Pipeline.unscopedBufs_split₀ (fun _ : Fin 1 => cfg5) 0 winFacts₀5.arr_unscoped c W]
  unfold Pipeline.arrBufs
  rw [bigSep_eq_bigSepL_of_eq _ (by decide : Finset.univ.image (Pipeline.arrRef spec5) = [Pipeline.arrRef spec5 0, Pipeline.arrRef spec5 2].toFinset) (by decide)]
  rfl

theorem arrays5 (c : Dev nD) (Fa : (w : Fin cfg5.W) → Buf (Elt F) ((cfg5.win w).arr.view.loc (c : Thread nD τ))) :
    ((dat5 V c).arrays Fa : sProp 𝕄)
      = iprop((((c : Thread nD τ).loc (Pipeline.arrRef spec5 0)) ↦{fullShare.left} Fa 0)
          ∗ (((c : Thread nD τ).loc (Pipeline.arrRef spec5 0)) ↦{fullShare.right} Fa 1)
          ∗ (((c : Thread nD τ).loc (Pipeline.arrRef spec5 2)) ↦{fullShare} Fa 2)) := by
  unfold Dat.arrays Dat.share
  rw [bigSep_W5, (arr_whole5 0).set_eq_univ, (arr_whole5 2).set_eq_univ]
  rfl

theorem arrays_of_unscopedBufs5 (c : Dev nD) (W : (b : Ref sig .tc) → Buf (Elt F) ((c : Thread nD τ).loc b))
    (hA : ∀ w, (dat5 V c).A w = W (Pipeline.arrRef spec5 w)) :
    (unscopedBufs c W : sProp 𝕄)
      ⊢ iprop((dat5 V c).arrays ((dat5 V c).arrAt · 0) ∗ Pipeline.unscopedRest spec5 c W) := by
  rw [unscopedBufs5, arrays5, (dat5 V c).arrAt_in 0 rfl, (dat5 V c).arrAt_in 1 rfl,
    show (dat5 V c).arrAt 2 0 = _ from hA 2, hA 0, show (dat5 V c).A 1 = _ from hA 0]
  iintro ⟨⟨H, H2⟩, $⟩
  ihave H' := (pointsTo_share (PosShare.mem_left_op_right fullShare)).1 $$ H
  icases H' with ⟨Hl, Hr⟩
  iframe

theorem unscopedBufs_of_arrays5 (c : Dev nD) (W W' : (b : Ref sig .tc) → Buf (Elt F) ((c : Thread nD τ).loc b))
    (Fn : (w : Fin cfg5.W) → Buf (Elt F) ((cfg5.win w).arr.view.loc (c : Thread nD τ)))
    (hF : ∀ w, Fn w = W' (Pipeline.arrRef spec5 w))
    (hrest : ∀ b, b ∉ Finset.univ.image (Pipeline.arrRef spec5) → W' b = W b) :
    iprop((dat5 V c).arrays Fn ∗ Pipeline.unscopedRest spec5 c W) ⊢ (unscopedBufs c W' : sProp 𝕄) := by
  rw [unscopedBufs5, arrays5, hF 0, show Fn 1 = W' (Pipeline.arrRef spec5 0) from hF 1, hF 2]
  refine BIClass.sep_mono ?_ (Entails.of_eq (bigSep_congr fun b hb => by rw [hrest b (Finset.mem_sdiff.mp hb).2]))
  iintro ⟨Hl, Hr, $⟩
  iapply (pointsTo_share (PosShare.mem_left_op_right fullShare)).2
  iframe

end Cert.Kernel.Reg5

end
-- ==== Proof.K.RunBase.lean ====
import proofs.«419268_j46583215292539_1_alg».proof.Proof.Gen.Kernel.Regions
import proofs.«419268_j46583215292539_1_alg».proof.Proof.K.Reg0
import proofs.«419268_j46583215292539_1_alg».proof.Proof.K.Reg1
import proofs.«419268_j46583215292539_1_alg».proof.Proof.K.Reg2
import proofs.«419268_j46583215292539_1_alg».proof.Proof.K.Reg3
import proofs.«419268_j46583215292539_1_alg».proof.Proof.K.Reg4
import proofs.«419268_j46583215292539_1_alg».proof.Proof.K.Reg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.Kernel.Hub
open Cert.Kernel.Reg0 Cert.Kernel.Reg1 Cert.Kernel.Reg2 Cert.Kernel.Reg3 Cert.Kernel.Reg4 Cert.Kernel.Reg5

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

abbrev atLaunch (r : Ref sig .tc) (c : Dev nD) : Buf (Elt F) ((c : Thread nD τ).loc r) := m ((c : Thread nD τ).loc r)

def outsOf (o2 : (c : Dev nD) → Buf (Elt F) ((c : Thread nD τ).loc main_v16)) (o4 : (c : Dev nD) → Buf (Elt F) ((c : Thread nD τ).loc main_v18))
    (o6 : (c : Dev nD) → Buf (Elt F) ((c : Thread nD τ).loc main_v21)) (o8 : (c : Dev nD) → Buf (Elt F) ((c : Thread nD τ).loc main_v23))
    (o10 : (c : Dev nD) → Buf (Elt F) ((c : Thread nD τ).loc main_v26)) (o11 : (c : Dev nD) → Buf (Elt F) ((c : Thread nD τ).loc main_v27)) : Outs (F := F) :=
  fun _ r c =>
    if h : r = main_v16 then h ▸ o2 c else if h : r = main_v18 then h ▸ o4 c else if h : r = main_v21 then h ▸ o6 c
    else if h : r = main_v23 then h ▸ o8 c else if h : r = main_v26 then h ▸ o10 c else if h : r = main_v27 then h ▸ o11 c
    else atLaunch m r c

section OutsOf
variable (o2 : (c : Dev nD) → Buf (Elt F) ((c : Thread nD τ).loc main_v16)) (o4 : (c : Dev nD) → Buf (Elt F) ((c : Thread nD τ).loc main_v18))
    (o6 : (c : Dev nD) → Buf (Elt F) ((c : Thread nD τ).loc main_v21)) (o8 : (c : Dev nD) → Buf (Elt F) ((c : Thread nD τ).loc main_v23))
    (o10 : (c : Dev nD) → Buf (Elt F) ((c : Thread nD τ).loc main_v26)) (o11 : (c : Dev nD) → Buf (Elt F) ((c : Thread nD τ).loc main_v27))
theorem outsOf_16 (J : ℕ) (c : Dev nD) : outsOf m o2 o4 o6 o8 o10 o11 J main_v16 c = o2 c := by
  unfold outsOf; rw [dif_pos rfl]
theorem outsOf_18 (J : ℕ) (c : Dev nD) : outsOf m o2 o4 o6 o8 o10 o11 J main_v18 c = o4 c := by
  unfold outsOf; repeat rw [dif_neg (by decide)]
  rw [dif_pos rfl]
theorem outsOf_21 (J : ℕ) (c : Dev nD) : outsOf m o2 o4 o6 o8 o10 o11 J main_v21 c = o6 c := by
  unfold outsOf; repeat rw [dif_neg (by decide)]
  rw [dif_pos rfl]
theorem outsOf_23 (J : ℕ) (c : Dev nD) : outsOf m o2 o4 o6 o8 o10 o11 J main_v23 c = o8 c := by
  unfold outsOf; repeat rw [dif_neg (by decide)]
  rw [dif_pos rfl]
theorem outsOf_26 (J : ℕ) (c : Dev nD) : outsOf m o2 o4 o6 o8 o10 o11 J main_v26 c = o10 c := by
  unfold outsOf; repeat rw [dif_neg (by decide)]
  rw [dif_pos rfl]
theorem outsOf_27 (J : ℕ) (c : Dev nD) : outsOf m o2 o4 o6 o8 o10 o11 J main_v27 c = o11 c := by
  unfold outsOf; repeat rw [dif_neg (by decide)]
  rw [dif_pos rfl]
end OutsOf

def o2 (c : Dev nD) : Buf (Elt F) ((c : Thread nD τ).loc main_v16) := (dat0 (rd (V1 m)) c).arrAt 2 cfg0.N
abbrev O1 : Outs (F := F) := outsOf m (o2 m) (atLaunch m _) (atLaunch m _) (atLaunch m _) (atLaunch m _) (atLaunch m _)

def o4 (c : Dev nD) : Buf (Elt F) ((c : Thread nD τ).loc main_v18) := (dat1 (rd (V3 m (O1 m))) c).arrAt 3 cfg1.N
abbrev O2 : Outs (F := F) := outsOf m (o2 m) (o4 m) (atLaunch m _) (atLaunch m _) (atLaunch m _) (atLaunch m _)

def o6 (c : Dev nD) : Buf (Elt F) ((c : Thread nD τ).loc main_v21) := (dat2 (rd (V5 m (O2 m))) c).arrAt 2 cfg2.N
abbrev O3 : Outs (F := F) := outsOf m (o2 m) (o4 m) (o6 m) (atLaunch m _) (atLaunch m _) (atLaunch m _)

def o8 (c : Dev nD) : Buf (Elt F) ((c : Thread nD τ).loc main_v23) := (dat3 (rd (V7 m (O3 m))) c).arrAt 3 cfg3.N
abbrev O4 : Outs (F := F) := outsOf m (o2 m) (o4 m) (o6 m) (o8 m) (atLaunch m _) (atLaunch m _)

def o10 (c : Dev nD) : Buf (Elt F) ((c : Thread nD τ).loc main_v26) := (dat4 (rd (V9 m (O4 m))) c).arrAt 3 cfg4.N
abbrev O5 : Outs (F := F) := outsOf m (o2 m) (o4 m) (o6 m) (o8 m) (o10 m) (atLaunch m _)

def o11 (c : Dev nD) : Buf (Elt F) ((c : Thread nD τ).loc main_v27) := (dat5 (rd (V10 m (O5 m))) c).arrAt 2 cfg5.N

abbrev outs : Outs (F := F) := outsOf m (o2 m) (o4 m) (o6 m) (o8 m) (o10 m) (o11 m)

theorem V3_outs (c : Dev nD) : V3 m (outs m) c = V3 m (O1 m) c := by
  simp only [V3, V2, outsOf_16]
theorem V5_outs (c : Dev nD) : V5 m (outs m) c = V5 m (O2 m) c := by
  simp only [V5, V4, V3, V2, outsOf_16, outsOf_18]
theorem V7_outs (c : Dev nD) : V7 m (outs m) c = V7 m (O3 m) c := by
  simp only [V7, V6, V5, V4, V3, V2, outsOf_16, outsOf_18, outsOf_21]
theorem V9_outs (c : Dev nD) : V9 m (outs m) c = V9 m (O4 m) c := by
  simp only [V9, V8, V7, V6, V5, V4, V3, V2, outsOf_16, outsOf_18, outsOf_21, outsOf_23]
theorem V10_outs (c : Dev nD) : V10 m (outs m) c = V10 m (O5 m) c := by
  simp only [V10, V9, V8, V7, V6, V5, V4, V3, V2, outsOf_16, outsOf_18, outsOf_21, outsOf_23, outsOf_26]

def pdats : (p : Fin 6) → (c : Dev nD) → Dat τ (Elt F) Unit ℕ (UR sig nD τ) ℕ (Pipeline.pin (pcfgs (F := F)) adm p) c
  | ⟨0, _⟩ => fun c => dat0 (rd (V1 m)) c
  | ⟨1, _⟩ => fun c => dat1 (rd (V3 m (O1 m))) c
  | ⟨2, _⟩ => fun c => dat2 (rd (V5 m (O2 m))) c
  | ⟨3, _⟩ => fun c => dat3 (rd (V7 m (O3 m))) c
  | ⟨4, _⟩ => fun c => dat4 (rd (V9 m (O4 m))) c
  | ⟨5, _⟩ => fun c => dat5 (rd (V10 m (O5 m))) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem Vout0_self (c : Dev nD) : V2 m (outs m) c main_v16 = o2 m c := by simp only [V2, Function.update_self, outsOf_16]
theorem Vout1_self (c : Dev nD) : V4 m (outs m) c main_v18 = o4 m c := by simp only [V4, Function.update_self, outsOf_18]
theorem Vout2_self (c : Dev nD) : V6 m (outs m) c main_v21 = o6 m c := by simp only [V6, Function.update_self, outsOf_21]
theorem Vout3_self (c : Dev nD) : V8 m (outs m) c main_v23 = o8 m c := by simp only [V8, Function.update_self, outsOf_23]
theorem Vout4_self (c : Dev nD) : V10 m (outs m) c main_v26 = o10 m c := by simp only [V10, Function.update_self, outsOf_26]
abbrev Vout5 : Dev nD → Valuation τ sig (Elt F) := V11 m (outs m)
theorem Vout5_self (c : Dev nD) : V11 m (outs m) c main_v27 = o11 m c := by simp only [V11, Function.update_self, outsOf_27]

theorem owed_zero (p : Fin 6) (c : Dev nD) : ∀ t, (pdats m p c).owed t = 0 := by fin_cases p <;> exact fun _ => rfl

theorem owes_in (p : Fin 6) (c : Dev nD) :
    (iprop(∃ W, owes (c : Thread nD τ) (0 : CellTallies nD τ sig Unit) W) : sProp 𝕄) ⊢ (pdats m p c).owesAt () 0 := by
  fin_cases p <;>
  · unfold Pipeline.Dat.owesAt Pipeline.owesWithin
    iintro ⟨%W, HO⟩; iexists W; isplitr; · ipureintro; exact fun _ _ => Or.inl trivial
    iexact HO

theorem owes_out (p : Fin 6) (c : Dev nD) :
    (pdats m p c).owesAt () (Fin.last _) ⊢ (iprop(∃ W, owes (c : Thread nD τ) (0 : CellTallies nD τ sig Unit) W) : sProp 𝕄) := by
  fin_cases p <;>
  · unfold Pipeline.Dat.owesAt Pipeline.owesWithin
    iintro ⟨%W, -, HO⟩; iexists W; iexact HO

theorem pref_emp (p : Fin 6) (c : Dev nD) :
    (BI.emp : sProp 𝕄) ⊢ Pipeline.prefHeld (pcfgs (F := F) p).pre c (fun _ => fullShare) (adm p).1 := by
  fin_cases p <;>
  · unfold Pipeline.prefHeld; rw [show (Finset.univ : Finset (Fin 0)) = ∅ from rfl, BI.bigSep_empty]

set_option backward.isDefEq.respectTransparency.types false in
def segOf (p : Fin 6) (Vin Vout : Dev nD → Valuation τ sig (Elt F))
    (win : Pipeline.WinFacts₀ (pcfgs (F := F) p).spec)
    (block_pos : ∀ w : Fin (Pipeline.pin (pcfgs (F := F)) adm p).W, 0 < ((Pipeline.pin (pcfgs (F := F)) adm p).spec w).block.numel)
    (stage_whole : ∀ (w : Fin (Pipeline.pin (pcfgs (F := F)) adm p).W) (s : Fin ((Pipeline.pin (pcfgs (F := F)) adm p).spec w).nbuf),
      (((Pipeline.pin (pcfgs (F := F)) adm p).spec w).stage s).IsWhole)
    (hbody : ∀ c, Pipeline.BodyObligationLoose (pdats m p c) defs₀ 𝒱₀ () Set.univ)
    (hsplit : ∀ c, (unscopedBufs (Ix := Unit) (Name := ℕ) (U := UR sig nD τ) (Lvl := ℕ) c (rd Vin c) : sProp 𝕄)
      ⊢ iprop((pdats m p c).arrays ((pdats m p c).arrAt · 0)
        ∗ Pipeline.unscopedRest (Ix := Unit) (Name := ℕ) (U := UR sig nD τ) (Lvl := ℕ) (Pipeline.pin (pcfgs (F := F)) adm p).spec c (rd Vin c)))
    (hjoin : ∀ c, iprop((pdats m p c).arrays ((pdats m p c).arrAt · (Pipeline.pin (pcfgs (F := F)) adm p).N)
        ∗ Pipeline.unscopedRest (Ix := Unit) (Name := ℕ) (U := UR sig nD τ) (Lvl := ℕ) (Pipeline.pin (pcfgs (F := F)) adm p).spec c (rd Vin c))
      ⊢ (unscopedBufs (Ix := Unit) (Name := ℕ) (U := UR sig nD τ) (Lvl := ℕ) c (rd Vout c) : sProp 𝕄))
    (hin : ∀ c, (Pipeline.ΦA (Pipeline.pin (pcfgs (F := F)) adm p).spec c : sProp 𝕄) ⊢ (pdats m p c).Φ 0)
    (hout : ∀ c, (pdats m p c).Φ (Fin.last (Pipeline.pin (pcfgs (F := F)) adm p).N) ⊢ (Pipeline.ΦA (Pipeline.pin (pcfgs (F := F)) adm p).spec c : sProp 𝕄)) :
    RegionSeg (pcfgs (F := F)) adm (pdats m) () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p (owed_zero m p)
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (rd Vin c)
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    iframe
    isplitr; · iapply (pref_emp p c); iempintro
    iapply (owes_in m p c); iexact HO
  hin c := by
    iintro ⟨Hp, -, Hr⟩
    iapply (hin c); unfold Pipeline.ΦA
    iframe
  hout c := by
    rw [Pipeline.ownSems0_none]
    refine (hout c).trans ?_
    unfold Pipeline.ΦA
    iintro ⟨Hr, Hp⟩
    iframe; iempintro
  hexit c := by
    have hj := hjoin c
    rw [Pipeline.unscopedBufs_held] at hj
    iintro ⟨Ha, HO, HY, Hrest⟩
    imodintro
    isplitl [Ha Hrest]
    · iapply hj; iframe
    isplitl [HY]; · iexact HY
    iapply (owes_out m p c); iexact HO

end Cert.Kernel.Run

end
-- ==== Proof.K.Seg0.lean ====
import proofs.«419268_j46583215292539_1_alg».proof.Proof.K.RunBase

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.Kernel.Hub
open Cert.Kernel.Reg0 Cert.Kernel.Reg1 Cert.Kernel.Reg2 Cert.Kernel.Reg3 Cert.Kernel.Reg4 Cert.Kernel.Reg5

variable {F : FTy → Type} [FloatOps F]

local notation "𝕄" => MT nD τ sig Unit (Elt F) ℕ (UR sig nD τ) ℕ

variable (m : (ℓ : Loc nD τ sig) → Buf (Elt F) ℓ)

theorem hA0 (c : Dev nD) (w : Fin cfg0.W) : (pdats m 0 c).A w = rd (V1 m) c (Pipeline.arrRef spec0 w) :=
  rfl

theorem hF0 (c : Dev nD) (w : Fin cfg0.W) : (pdats m 0 c).arrAt w cfg0.N = rd (V2 m (outs m)) c (Pipeline.arrRef spec0 w) :=
  match w with
  | ⟨0, _⟩ | ⟨1, _⟩ => ((pdats m 0 c).arrAt_in _ rfl _).trans ((hA0 m c _).trans (V2_of m (outs m) c _ (by decide +revert)).symm)
  | ⟨2, _⟩ => (Vout0_self m c).symm

theorem hrest0 (c : Dev nD) : ∀ b, b ∉ Finset.univ.image (Pipeline.arrRef spec0) → rd (V2 m (outs m)) c b = rd (V1 m) c b :=
  fun b hb => V2_of m (outs m) c b fun h => hb (by
    rw [List.mem_singleton.mp h]; exact Finset.mem_image.mpr ⟨2, Finset.mem_univ _, rfl⟩)

set_option backward.isDefEq.respectTransparency.types false in
def reg0 : RegionSeg (pcfgs (F := F)) adm (pdats m) () defs₀ 𝒱₀ L lv 0 :=
  segOf m 0 (V1 m) (V2 m (outs m)) launch0.win.to₀ launch0.block_pos launch0.stage_whole
    (fun c => (body_obligation0 (rd (V1 m)) c).loose)
    (fun c => Pipeline.arrays_of_unscopedBufs (p := 0) (pcfgs (F := F)) adm (pdats m) launch0.win launch0.arr_whole c
      ((pdats m 0 c).share_full fun _ => rfl) (rd (V1 m) c) (hA0 m c))
    (fun c => Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (V1 m) c) (rd (V2 m (outs m)) c) ((pdats m 0 c).arrAt · cfg0.N) (hF0 m c) (hrest0 m c))
    (fun _ => .rfl) (fun _ => .rfl)

end Cert.Kernel.Run

end
-- ==== Proof.K.Seg1.lean ====
import proofs.«419268_j46583215292539_1_alg».proof.Proof.K.RunBase

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.Kernel.Hub
open Cert.Kernel.Reg0 Cert.Kernel.Reg1 Cert.Kernel.Reg2 Cert.Kernel.Reg3 Cert.Kernel.Reg4 Cert.Kernel.Reg5

variable {F : FTy → Type} [FloatOps F]

local notation "𝕄" => MT nD τ sig Unit (Elt F) ℕ (UR sig nD τ) ℕ

variable (m : (ℓ : Loc nD τ sig) → Buf (Elt F) ℓ)

theorem hA1 (c : Dev nD) (w : Fin cfg1.W) : (pdats m 1 c).A w = rd (V3 m (outs m)) c (Pipeline.arrRef spec1 w) :=
  (congrFun (V3_outs m c) _).symm

theorem hF1 (c : Dev nD) (w : Fin cfg1.W) : (pdats m 1 c).arrAt w cfg1.N = rd (V4 m (outs m)) c (Pipeline.arrRef spec1 w) :=
  match w with
  | ⟨0, _⟩ | ⟨1, _⟩ | ⟨2, _⟩ => ((pdats m 1 c).arrAt_in _ rfl _).trans ((hA1 m c _).trans (V4_of m (outs m) c _ (by decide +revert)).symm)
  | ⟨3, _⟩ => (Vout1_self m c).symm

theorem hrest1 (c : Dev nD) : ∀ b, b ∉ Finset.univ.image (Pipeline.arrRef spec1) → rd (V4 m (outs m)) c b = rd (V3 m (outs m)) c b :=
  fun b hb => V4_of m (outs m) c b fun h => hb (by
    rw [List.mem_singleton.mp h]; exact Finset.mem_image.mpr ⟨3, Finset.mem_univ _, rfl⟩)

set_option backward.isDefEq.respectTransparency.types false in
def reg1 : RegionSeg (pcfgs (F := F)) adm (pdats m) () defs₀ 𝒱₀ L lv 1 :=
  segOf m 1 (V3 m (outs m)) (V4 m (outs m)) launch1.win.to₀ launch1.block_pos launch1.stage_whole
    (fun c => (body_obligation1 (rd (V3 m (O1 m))) c).loose)
    (fun c => Pipeline.arrays_of_unscopedBufs (p := 1) (pcfgs (F := F)) adm (pdats m) launch1.win launch1.arr_whole c
      ((pdats m 1 c).share_full fun _ => rfl) (rd (V3 m (outs m)) c) (hA1 m c))
    (fun c => Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (V3 m (outs m)) c) (rd (V4 m (outs m)) c) ((pdats m 1 c).arrAt · cfg1.N) (hF1 m c) (hrest1 m c))
    (fun _ => .rfl) (hout1 (rd (V3 m (O1 m))))

end Cert.Kernel.Run

end
-- ==== Proof.K.Seg2.lean ====
import proofs.«419268_j46583215292539_1_alg».proof.Proof.K.RunBase

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.Kernel.Hub
open Cert.Kernel.Reg0 Cert.Kernel.Reg1 Cert.Kernel.Reg2 Cert.Kernel.Reg3 Cert.Kernel.Reg4 Cert.Kernel.Reg5

variable {F : FTy → Type} [FloatOps F]

local notation "𝕄" => MT nD τ sig Unit (Elt F) ℕ (UR sig nD τ) ℕ

variable (m : (ℓ : Loc nD τ sig) → Buf (Elt F) ℓ)

theorem hA2 (c : Dev nD) (w : Fin cfg2.W) : (pdats m 2 c).A w = rd (V5 m (outs m)) c (Pipeline.arrRef spec2 w) :=
  (congrFun (V5_outs m c) _).symm

theorem hF2 (c : Dev nD) (w : Fin cfg2.W) : (pdats m 2 c).arrAt w cfg2.N = rd (V6 m (outs m)) c (Pipeline.arrRef spec2 w) :=
  match w with
  | ⟨0, _⟩ | ⟨1, _⟩ => ((pdats m 2 c).arrAt_in _ rfl _).trans ((hA2 m c _).trans (V6_of m (outs m) c _ (by decide +revert)).symm)
  | ⟨2, _⟩ => (Vout2_self m c).symm

theorem hrest2 (c : Dev nD) : ∀ b, b ∉ Finset.univ.image (Pipeline.arrRef spec2) → rd (V6 m (outs m)) c b = rd (V5 m (outs m)) c b :=
  fun b hb => V6_of m (outs m) c b fun h => hb (by
    rw [List.mem_singleton.mp h]; exact Finset.mem_image.mpr ⟨2, Finset.mem_univ _, rfl⟩)

set_option backward.isDefEq.respectTransparency.types false in
def reg2 : RegionSeg (pcfgs (F := F)) adm (pdats m) () defs₀ 𝒱₀ L lv 2 :=
  segOf m 2 (V5 m (outs m)) (V6 m (outs m)) launch2.win.to₀ launch2.block_pos launch2.stage_whole
    (fun c => (body_obligation2 (rd (V5 m (O2 m))) c).loose)
    (fun c => Pipeline.arrays_of_unscopedBufs (p := 2) (pcfgs (F := F)) adm (pdats m) launch2.win launch2.arr_whole c
      ((pdats m 2 c).share_full fun _ => rfl) (rd (V5 m (outs m)) c) (hA2 m c))
    (fun c => Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (V5 m (outs m)) c) (rd (V6 m (outs m)) c) ((pdats m 2 c).arrAt · cfg2.N) (hF2 m c) (hrest2 m c))
    (fun _ => .rfl) (fun _ => .rfl)

end Cert.Kernel.Run

end
-- ==== Proof.K.Seg3.lean ====
import proofs.«419268_j46583215292539_1_alg».proof.Proof.K.RunBase

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.Kernel.Hub
open Cert.Kernel.Reg0 Cert.Kernel.Reg1 Cert.Kernel.Reg2 Cert.Kernel.Reg3 Cert.Kernel.Reg4 Cert.Kernel.Reg5

variable {F : FTy → Type} [FloatOps F]

local notation "𝕄" => MT nD τ sig Unit (Elt F) ℕ (UR sig nD τ) ℕ

variable (m : (ℓ : Loc nD τ sig) → Buf (Elt F) ℓ)

theorem hA3 (c : Dev nD) (w : Fin cfg3.W) : (pdats m 3 c).A w = rd (V7 m (outs m)) c (Pipeline.arrRef spec3 w) :=
  (congrFun (V7_outs m c) _).symm

theorem hF3 (c : Dev nD) (w : Fin cfg3.W) : (pdats m 3 c).arrAt w cfg3.N = rd (V8 m (outs m)) c (Pipeline.arrRef spec3 w) :=
  match w with
  | ⟨0, _⟩ | ⟨1, _⟩ | ⟨2, _⟩ => ((pdats m 3 c).arrAt_in _ rfl _).trans ((hA3 m c _).trans (V8_of m (outs m) c _ (by decide +revert)).symm)
  | ⟨3, _⟩ => (Vout3_self m c).symm

theorem hrest3 (c : Dev nD) : ∀ b, b ∉ Finset.univ.image (Pipeline.arrRef spec3) → rd (V8 m (outs m)) c b = rd (V7 m (outs m)) c b :=
  fun b hb => V8_of m (outs m) c b fun h => hb (by
    rw [List.mem_singleton.mp h]; exact Finset.mem_image.mpr ⟨3, Finset.mem_univ _, rfl⟩)

set_option backward.isDefEq.respectTransparency.types false in
def reg3 : RegionSeg (pcfgs (F := F)) adm (pdats m) () defs₀ 𝒱₀ L lv 3 :=
  segOf m 3 (V7 m (outs m)) (V8 m (outs m)) launch3.win.to₀ launch3.block_pos launch3.stage_whole
    (fun c => (body_obligation3 (rd (V7 m (O3 m))) c).loose)
    (fun c => Pipeline.arrays_of_unscopedBufs (p := 3) (pcfgs (F := F)) adm (pdats m) launch3.win launch3.arr_whole c
      ((pdats m 3 c).share_full fun _ => rfl) (rd (V7 m (outs m)) c) (hA3 m c))
    (fun c => Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (V7 m (outs m)) c) (rd (V8 m (outs m)) c) ((pdats m 3 c).arrAt · cfg3.N) (hF3 m c) (hrest3 m c))
    (fun _ => .rfl) (hout3 (rd (V7 m (O3 m))))

end Cert.Kernel.Run

end
-- ==== Proof.K.Seg4.lean ====
import proofs.«419268_j46583215292539_1_alg».proof.Proof.K.RunBase

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.Kernel.Hub
open Cert.Kernel.Reg0 Cert.Kernel.Reg1 Cert.Kernel.Reg2 Cert.Kernel.Reg3 Cert.Kernel.Reg4 Cert.Kernel.Reg5

variable {F : FTy → Type} [FloatOps F]

local notation "𝕄" => MT nD τ sig Unit (Elt F) ℕ (UR sig nD τ) ℕ

variable (m : (ℓ : Loc nD τ sig) → Buf (Elt F) ℓ)

theorem hA4 (c : Dev nD) (w : Fin cfg4.W) : (pdats m 4 c).A w = rd (V9 m (outs m)) c (Pipeline.arrRef spec4 w) :=
  (congrFun (V9_outs m c) _).symm

theorem hF4 (c : Dev nD) (w : Fin cfg4.W) : (pdats m 4 c).arrAt w cfg4.N = rd (V10 m (outs m)) c (Pipeline.arrRef spec4 w) :=
  match w with
  | ⟨0, _⟩ | ⟨1, _⟩ | ⟨2, _⟩ => ((pdats m 4 c).arrAt_in _ rfl _).trans ((hA4 m c _).trans (V10_of m (outs m) c _ (by decide +revert)).symm)
  | ⟨3, _⟩ => (Vout4_self m c).symm

theorem hrest4 (c : Dev nD) : ∀ b, b ∉ Finset.univ.image (Pipeline.arrRef spec4) → rd (V10 m (outs m)) c b = rd (V9 m (outs m)) c b :=
  fun b hb => V10_of m (outs m) c b fun h => hb (by
    rw [List.mem_singleton.mp h]; exact Finset.mem_image.mpr ⟨3, Finset.mem_univ _, rfl⟩)

set_option backward.isDefEq.respectTransparency.types false in
def reg4 : RegionSeg (pcfgs (F := F)) adm (pdats m) () defs₀ 𝒱₀ L lv 4 :=
  segOf m 4 (V9 m (outs m)) (V10 m (outs m)) launch4.win.to₀ launch4.block_pos launch4.stage_whole
    (fun c => (body_obligation4 (rd (V9 m (O4 m))) c).loose)
    (fun c => Pipeline.arrays_of_unscopedBufs (p := 4) (pcfgs (F := F)) adm (pdats m) launch4.win launch4.arr_whole c
      ((pdats m 4 c).share_full fun _ => rfl) (rd (V9 m (outs m)) c) (hA4 m c))
    (fun c => Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (rd (V9 m (outs m)) c) (rd (V10 m (outs m)) c) ((pdats m 4 c).arrAt · cfg4.N) (hF4 m c) (hrest4 m c))
    (fun _ => .rfl) (fun _ => .rfl)

end Cert.Kernel.Run

end
-- ==== Proof.K.Seg5.lean ====
import proofs.«419268_j46583215292539_1_alg».proof.Proof.K.RunBase

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.Kernel.Hub
open Cert.Kernel.Reg0 Cert.Kernel.Reg1 Cert.Kernel.Reg2 Cert.Kernel.Reg3 Cert.Kernel.Reg4 Cert.Kernel.Reg5

variable {F : FTy → Type} [FloatOps F]

local notation "𝕄" => MT nD τ sig Unit (Elt F) ℕ (UR sig nD τ) ℕ

variable (m : (ℓ : Loc nD τ sig) → Buf (Elt F) ℓ)

theorem hA5 (c : Dev nD) (w : Fin cfg5.W) : (pdats m 5 c).A w = rd (V10 m (outs m)) c (Pipeline.arrRef spec5 w) :=
  (congrFun (V10_outs m c) _).symm

theorem hF5 (c : Dev nD) (w : Fin cfg5.W) : (pdats m 5 c).arrAt w cfg5.N = rd (V11 m (outs m)) c (Pipeline.arrRef spec5 w) :=
  match w with
  | ⟨0, _⟩ | ⟨1, _⟩ => ((pdats m 5 c).arrAt_in _ rfl _).trans ((hA5 m c _).trans (V11_of m (outs m) c _ (by decide +revert)).symm)
  | ⟨2, _⟩ => (Vout5_self m c).symm

theorem hrest5 (c : Dev nD) : ∀ b, b ∉ Finset.univ.image (Pipeline.arrRef spec5) → rd (V11 m (outs m)) c b = rd (V10 m (outs m)) c b :=
  fun b hb => V11_of m (outs m) c b fun h => hb (by
    rw [List.mem_singleton.mp h]; exact Finset.mem_image.mpr ⟨2, Finset.mem_univ _, rfl⟩)

set_option backward.isDefEq.respectTransparency.types false in
def reg5 : RegionSeg (pcfgs (F := F)) adm (pdats m) () defs₀ 𝒱₀ L lv 5 :=
  segOf m 5 (V10 m (outs m)) (V11 m (outs m)) winFacts₀5 block_pos5 stage_whole5
    (fun c => (body_obligation5 (rd (V10 m (O5 m))) c).loose)
    (fun c => arrays_of_unscopedBufs5 (rd (V10 m (O5 m))) c (rd (V10 m (outs m)) c) (hA5 m c))
    (fun c => unscopedBufs_of_arrays5 (rd (V10 m (O5 m))) c (rd (V10 m (outs m)) c) (rd (V11 m (outs m)) c)
      ((pdats m 5 c).arrAt · cfg5.N) (hF5 m c) (hrest5 m c))
    (fun _ => .rfl) (fun _ => .rfl)

end Cert.Kernel.Run

end
-- ==== Proof.K.Run.lean ====
import proofs.«419268_j46583215292539_1_alg».proof.Proof.K.Seg0
import proofs.«419268_j46583215292539_1_alg».proof.Proof.K.Seg1
import proofs.«419268_j46583215292539_1_alg».proof.Proof.K.Seg2
import proofs.«419268_j46583215292539_1_alg».proof.Proof.K.Seg3
import proofs.«419268_j46583215292539_1_alg».proof.Proof.K.Seg4
import proofs.«419268_j46583215292539_1_alg».proof.Proof.K.Seg5
import proofs.«419268_j46583215292539_1_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.Kernel.Hub

variable {F : FTy → Type} [FloatOps F]

local notation "𝕄" => MT nD τ sig Unit (Elt F) ℕ (UR sig nD τ) ℕ

variable (m : (ℓ : Loc nD τ sig) → Buf (Elt F) ℓ)

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

-- Only the frame is claimed of this program, so the generated conditional frame takes the six segments as they are.
set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c) (hE0 ρ) (fun c => by iintro ⟨-, HO⟩; iexact HO)
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)

end Cert.Kernel.Run

end
-- ==== Proof.Bridge.lean ====
import proofs.«419268_j46583215292539_1_alg».proof.Defs
import proofs.«419268_j46583215292539_1_alg».proof.Proof.Gen.Kernel
import proofs.«419268_j46583215292539_1_alg».proof.Proof.Gen.KernelIdeal
import proofs.«419268_j46583215292539_1_alg».proof.Proof.Gen.ReferenceIdeal
import proofs.«419268_j46583215292539_1_alg».proof.Proof.Gen.Pre_finite_inputs
import proofs.«419268_j46583215292539_1_alg».proof.Proof.Spec
import proofs.«419268_j46583215292539_1_alg».proof.Proof.SpecLaws
import proofs.«419268_j46583215292539_1_alg».proof.Proof.PreFacts
import proofs.«419268_j46583215292539_1_alg».proof.Proof.RefValue
import proofs.«419268_j46583215292539_1_alg».proof.Proof.KI.Run
import proofs.«419268_j46583215292539_1_alg».proof.Proof.KI.Chain
import proofs.«419268_j46583215292539_1_alg».proof.Proof.K.Run

noncomputable section

namespace Cert.Bridge

open Idealize.ShloMosaic Idealize.ShloMosaic.TcCoe Idealize.SL.Sem

theorem frame_k : Cert.frame_Kernel := fun m ρ _ => Cert.Kernel.Run.frame (F := Bits) m ρ

theorem frame_ki : Cert.frame_KernelIdeal := fun m ρ _ =>
  (θ_run (Cert.KernelIdeal.defs (F := Ideal)) _ _).mono (fun r h c => (h c).2.2) (Cert.KernelIdeal.Run.run_main (F := Ideal) m ρ)

theorem frame_ri : Cert.frame_ReferenceIdeal := Cert.RefValue.ref_frame

theorem preserves : Cert.preserves_Kernel_KernelIdeal := trivial

open Cert.KernelIdeal in
abbrev zOf (m : (ℓ : Loc nD τ sig) → Buf (Elt Ideal) ℓ) (c : Dev nD) :=
  Cert.Spec.zE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

theorem algebraic : Cert.algebraic_KernelIdeal_ReferenceIdeal := by
  intro m ρ m' ρ' hpre hagree
  refine ⟨fun c => Cert.Spec.dec (zOf m c), zOf m, ?_, ?_⟩
  · refine (θ_run (Cert.KernelIdeal.defs (F := Ideal)) _ _).mono (fun r h c => ?_) (Cert.KernelIdeal.Run.run_main (F := Ideal) m ρ)
    obtain ⟨hrow, hcol, hval, hX, hW1, hb1, hW2, hb2, hW3, hb3, hnoise⟩ := Cert.PreFacts.facts _ _ _ _ _ _ _ _ _ _ _ (hpre c)
    have hz : _ = zOf m c := Cert.SpecLaws.zD_eq_zE _ _ _ _ _ _ _ _ _ _ _ hcol hval hX hW1 hb1 hW2 hW3
    exact ⟨((h c).1.trans (Cert.KernelIdeal.Chain.adj_eq m c hrow hcol)).trans (congrArg Cert.Spec.dec hz),
      ((h c).2.1.trans (Cert.KernelIdeal.Chain.z_eq m c hrow hcol)).trans hz, (h c).2.2⟩
  · have hcol' : ∀ (c : Dev Cert.ReferenceIdeal.nD) (e : Fin 262144), 0 ≤ ((m' ((c.tc : Thread Cert.ReferenceIdeal.nD Cert.ReferenceIdeal.τ).loc Cert.ReferenceIdeal.main_arg1)) (Idealize.ShloMosaic.ValueIdx.ix1 e)).toInt := by
      intro c e
      rw [(hagree c).2.1]
      exact ((Cert.PreFacts.facts _ _ _ _ _ _ _ _ _ _ _ (hpre c)).2.1 e).1
    refine (θ_run (Cert.ReferenceIdeal.defs (F := Ideal)) _ _).mono (fun r h c => ?_) (Cert.RefValue.ref_run m' ρ' hcol')
    obtain ⟨g0, g1, g2, g3, g4, g5, g6, g7, g8, g9, g10⟩ := hagree c
    refine ⟨(h c).1.trans ?_, (h c).2.1.trans ?_, (h c).2.2⟩
    · rw [g0, g1, g2, g3, g4, g5, g6, g7, g8, g9, g10]
    · rw [g0, g1, g2, g3, g4, g5, g6, g7, g8, g9, g10]

end Cert.Bridge

end
-- ==== Proof.lean ====
-- The dense-adjacency kernel and the edge-list reference compute one latent table and one decoder output; all three programs keep their arguments.
import proofs.«419268_j46583215292539_1_alg».proof.Defs
import proofs.«419268_j46583215292539_1_alg».proof.Proof.Gen.Kernel
import proofs.«419268_j46583215292539_1_alg».proof.Proof.Gen.Kernel.Skeleton
import proofs.«419268_j46583215292539_1_alg».proof.Proof.Gen.Kernel.Launch
import proofs.«419268_j46583215292539_1_alg».proof.Proof.Gen.Kernel.Regions
import proofs.«419268_j46583215292539_1_alg».proof.Proof.Gen.Kernel.Points
import proofs.«419268_j46583215292539_1_alg».proof.Proof.Gen.KernelIdeal
import proofs.«419268_j46583215292539_1_alg».proof.Proof.Gen.KernelIdeal.Skeleton
import proofs.«419268_j46583215292539_1_alg».proof.Proof.Gen.KernelIdeal.Launch
import proofs.«419268_j46583215292539_1_alg».proof.Proof.Gen.KernelIdeal.Regions
import proofs.«419268_j46583215292539_1_alg».proof.Proof.Gen.KernelIdeal.Points
import proofs.«419268_j46583215292539_1_alg».proof.Proof.Gen.ReferenceIdeal
import proofs.«419268_j46583215292539_1_alg».proof.Proof.Gen.Pre_finite_inputs
import proofs.«419268_j46583215292539_1_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, Cert.Bridge.frame_k, Cert.Bridge.frame_ki, Cert.Bridge.frame_ri, Cert.Bridge.preserves, Cert.Bridge.algebraic⟩

end Cert.Proof

end
